-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S1x800000 : Shape := ⟨2, ![1, 800000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  bcast_S_S1x800000 : S_.BroadcastsInDim S1x800000 (![] : Fin 0 → Fin S1x800000.rank)
  reducesTo_S1x800000_S_d0_1 : S1x800000.ReducesTo [0, 1] S_

variable [Facts]

def fn_part1 {F : FTy → Type} [FloatOps F] (main_arg1 : IVec S2x800000 32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x800000 32 := (extractStridedSlice S1x800000 ![0, 0] · slices_S2x800000_S1x800000_0_0) main_arg1
  let main_c_8 : IVec S_ 32 := constantI S_ 32 0#32
  let main_v25 : IVec S1x800000 32 := broadcastInDim S1x800000 ![] bcast_S_S1x800000 main_c_8
  let main_v26 : IVec S1x800000 1 := cmpi .sge main_v24 main_v25
  let main_v27 : IVec S1x800000 32 := (extractStridedSlice S1x800000 ![0, 0] · slices_S2x800000_S1x800000_0_0) main_arg1
  let main_c_9 : IVec S_ 32 := constantI S_ 32 50000#32
  let main_v28 : IVec S1x800000 32 := broadcastInDim S1x800000 ![] bcast_S_S1x800000 main_c_9
  let main_v29 : IVec S1x800000 1 := cmpi .slt main_v27 main_v28
  let main_v30 : IVec S1x800000 1 := andi main_v26 main_v29
  let main_c_10 : IVec S_ 1 := constantI S_ 1 1#1
  let main_v31 : IVec S_ 1 := (fun x v => Host.reduce IntOp.andi x v reducesTo_S1x800000_S_d0_1 h_S_) main_v30 main_c_10
  let main_v32 : IVec S_ 1 := andi main_v23 main_v31
  main_v32

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850944 : Shape := ⟨1, ![850944]⟩
abbrev S850944x1 : Shape := ⟨2, ![850944, 1]⟩
abbrev S2000x256 : Shape := ⟨2, ![2000, 256]⟩
abbrev S850944x256 : Shape := ⟨2, ![850944, 256]⟩
abbrev S1024x1 : Shape := ⟨2, ![1024, 1]⟩
abbrev S1024x256 : Shape := ⟨2, ![1024, 256]⟩
abbrev S1x2000 : Shape := ⟨2, ![1, 2000]⟩
abbrev S1024x2000 : Shape := ⟨2, ![1024, 2000]⟩
abbrev S1x256 : Shape := ⟨2, ![1, 256]⟩
abbrev S50000x128 : Shape := ⟨2, ![50000, 128]⟩
abbrev S2000x128 : Shape := ⟨2, ![2000, 128]⟩
abbrev S850944x128 : Shape := ⟨2, ![850944, 128]⟩
abbrev S1024x128 : Shape := ⟨2, ![1024, 128]⟩
abbrev S1x128 : Shape := ⟨2, ![1, 128]⟩

abbrev nBuf : Space → Nat
  | .hbm => 69
  | .vmem => 44
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S_, .i32⟩
  | .hbm, ⟨51, _⟩ => ⟨S850944, .i32⟩
  | .hbm, ⟨52, _⟩ => ⟨S850944x1, .i32⟩
  | .hbm, ⟨53, _⟩ => ⟨S_, .i32⟩
  | .hbm, ⟨54, _⟩ => ⟨S_, .i32⟩
  | .hbm, ⟨55, _⟩ => ⟨S850944, .i32⟩
  | .hbm, ⟨56, _⟩ => ⟨S850944x1, .i32⟩
  | .hbm, ⟨57, _⟩ => ⟨S_, .i32⟩
  | .hbm, ⟨58, _⟩ => ⟨S_, .f32⟩
  | .hbm, ⟨59, _⟩ => ⟨S850944, .f32⟩
  | .hbm, ⟨60, _⟩ => ⟨S850944x1, .f32⟩
  | .hbm, ⟨61, _⟩ => ⟨S50000x256, .bf16⟩
  | .hbm, ⟨62, _⟩ => ⟨S850944x256, .bf16⟩
  | .hbm, ⟨63, _⟩ => ⟨S1x256, .f32⟩
  | .hbm, ⟨64, _⟩ => ⟨S50000x256, .f32⟩
  | .hbm, ⟨65, _⟩ => ⟨S50000x128, .bf16⟩
  | .hbm, ⟨66, _⟩ => ⟨S850944x128, .bf16⟩
  | .hbm, ⟨67, _⟩ => ⟨S1x128, .f32⟩
  | .hbm, ⟨68, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .bf16⟩
  | .local _ .vmem, ⟨4, _⟩ => ⟨S2000x256, .bf16⟩
  | .local _ .vmem, ⟨5, _⟩ => ⟨S2000x256, .bf16⟩
  | .local _ .vmem, ⟨6, _⟩ => ⟨S2000x256, .bf16⟩
  | .local _ .vmem, ⟨7, _⟩ => ⟨S1024x1, .i32⟩
  | .local _ .vmem, ⟨8, _⟩ => ⟨S1024x1, .i32⟩
  | .local _ .vmem, ⟨9, _⟩ => ⟨S1024x1, .f32⟩
  | .local _ .vmem, ⟨10, _⟩ => ⟨S1024x1, .f32⟩
  | .local _ .vmem, ⟨11, _⟩ => ⟨S1024x256, .bf16⟩
  | .local _ .vmem, ⟨12, _⟩ => ⟨S1024x256, .bf16⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S1024x1, .i32⟩
  | .local _ .vmem, ⟨17, _⟩ => ⟨S1024x1, .i32⟩
  | .local _ .vmem, ⟨18, _⟩ => ⟨S1x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x128, .f32⟩
  | .local _ .vmem, ⟨25, _⟩ => ⟨S2000x128, .bf16⟩
  | .local _ .vmem, ⟨26, _⟩ => ⟨S2000x128, .bf16⟩
  | .local _ .vmem, ⟨27, _⟩ => ⟨S2000x128, .bf16⟩
  | .local _ .vmem, ⟨28, _⟩ => ⟨S2000x128, .bf16⟩
  | .local _ .vmem, ⟨29, _⟩ => ⟨S1024x1, .i32⟩
  | .local _ .vmem, ⟨30, _⟩ => ⟨S1024x1, .i32⟩
  | .local _ .vmem, ⟨31, _⟩ => ⟨S1024x1, .f32⟩
  | .local _ .vmem, ⟨32, _⟩ => ⟨S1024x1, .f32⟩
  | .local _ .vmem, ⟨33, _⟩ => ⟨S1024x128, .bf16⟩
  | .local _ .vmem, ⟨34, _⟩ => ⟨S1024x128, .bf16⟩
  | .local _ .vmem, ⟨35, _⟩ => ⟨S1024x128, .f32⟩
  | .local _ .vmem, ⟨36, _⟩ => ⟨S1024x128, .bf16⟩
  | .local _ .vmem, ⟨37, _⟩ => ⟨S1024x128, .bf16⟩
  | .local _ .vmem, ⟨38, _⟩ => ⟨S1024x1, .i32⟩
  | .local _ .vmem, ⟨39, _⟩ => ⟨S1024x1, .i32⟩
  | .local _ .vmem, ⟨40, _⟩ => ⟨S1x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_call2_v0 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_call3_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![831, 25], ![false, false]⟩

def k1_cond2 (i : grid1.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![25, 831], ![false, false]⟩

def k2_cond2 (i : grid2.Coords) : BitVec 1 :=
  let arg1 : BitVec 32 := BitVec.ofNat 32 (i 1).val
  let c830_i32 : BitVec 32 := 830#32
  let v23 : BitVec 1 := Scalar.cmpi .eq arg1 c830_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![831, 25], ![false, false]⟩

def k4_cond2 (i : grid4.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 831], ![false, false]⟩

def k5_cond2 (i : grid5.Coords) : BitVec 1 :=
  let arg1 : BitVec 32 := BitVec.ofNat 32 (i 1).val
  let c830_i32 : BitVec 32 := 830#32
  let v23 : BitVec 1 := Scalar.cmpi .eq arg1 c830_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1024x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S850000_S850944_09440 : S850000.Pads (![0] : Fin 1 → Nat) ![944] ![0] S850944
  h_S_ : 0 < S_.numel
  shapeCasts_S850944_S850944x1 : S850944.ShapeCasts S850944x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S2000x256_S2000x256_0_0 : (Rect.unit (s := S2000x256) ![0, 0] S2000x256.size inb_S2000x256_S2000x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1x2000_d1_w32 : S1x2000.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1x2000_S1024x2000 : S1x2000.Broadcasts S1024x2000
  broadcasts_S1024x1_S1024x2000 : S1024x1.Broadcasts S1024x2000
  natLt_1_32 : 1 < 32
  shapeCasts_S2000x256_S2000x256 : S2000x256.ShapeCasts S2000x256
  broadcasts_S1024x1_S1024x256 : S1024x1.Broadcasts S1024x256
  packedbf16_S1024x256_S1024x256_0_0 : (Rect.unit (s := S1024x256) ![0, 0] S1024x256.size inb_S1024x256_S1024x256_0_0).PackedRows (EltTy.packing .bf16)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S2000x128_S2000x128 : S2000x128.ShapeCasts S2000x128
  broadcasts_S1024x1_S1024x128 : S1024x1.Broadcasts S1024x128
  packedbf16_S1024x128_S1024x128_0_0 : (Rect.unit (s := S1024x128) ![0, 0] S1024x128.size inb_S1024x128_S1024x128_0_0).PackedRows (EltTy.packing .bf16)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  dot_S1024x2000_S2000x256_S1024x256_1_0_0_1_n_n_wf : DotDims.WF S1024x2000 S2000x256 S1024x256 [1] [0] [0] [1] [] []
  dot_S1024x2000_S1024x256_S2000x256_0_0_1_1_n_n_wf : DotDims.WF S1024x2000 S1024x256 S2000x256 [0] [0] [1] [1] [] []
  dot_S2000x256_S256x128_S2000x128_1_0_0_1_n_n_wf : DotDims.WF S2000x256 S256x128 S2000x128 [1] [0] [0] [1] [] []
  dot_S1024x2000_S2000x128_S1024x128_1_0_0_1_n_n_wf : DotDims.WF S1024x2000 S2000x128 S1024x128 [1] [0] [0] [1] [] []
  dot_S1024x2000_S1024x128_S2000x128_0_0_1_1_n_n_wf : DotDims.WF S1024x2000 S1024x128 S2000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .bf16 = 32 ∨ (Rect.block (s := S50000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S850944x1.size a
  hwx1_1 : ∀ i : grid1.Coords, EltTy.bits .i32 = 32 ∨ (Rect.block (s := S850944x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S850944x1.size a
  hwx1_2 : ∀ i : grid1.Coords, EltTy.bits .f32 = 32 ∨ (Rect.block (s := S850944x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S850944x256.size a
  hwx1_3 : ∀ i : grid1.Coords, EltTy.bits .bf16 = 32 ∨ (Rect.block (s := S850944x256) S1024x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S850944x256.size a
  hwx2_0 : ∀ i : grid2.Coords, EltTy.bits .bf16 = 32 ∨ (Rect.block (s := S850944x256) S1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S850944x1.size a
  hwx2_1 : ∀ i : grid2.Coords, EltTy.bits .i32 = 32 ∨ (Rect.block (s := S850944x1) S1024x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .bf16 = 32 ∨ (Rect.block (s := S50000x128) S2000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .bf16 = 32 ∨ (Rect.block (s := S50000x128) S2000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1.size a ≤ S850944x1.size a
  hwx4_1 : ∀ i : grid4.Coords, EltTy.bits .i32 = 32 ∨ (Rect.block (s := S850944x1) S1024x1.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1.size a ≤ S850944x1.size a
  hwx4_2 : ∀ i : grid4.Coords, EltTy.bits .f32 = 32 ∨ (Rect.block (s := S850944x1) S1024x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S850944x128.size a
  hwx4_3 : ∀ i : grid4.Coords, EltTy.bits .bf16 = 32 ∨ (Rect.block (s := S850944x128) S1024x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S850944x128.size a
  hwx5_0 : ∀ i : grid5.Coords, EltTy.bits .bf16 = 32 ∨ (Rect.block (s := S850944x128) S1024x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1.size a ≤ S850944x1.size a
  hwx5_1 : ∀ i : grid5.Coords, EltTy.bits .i32 = 32 ∨ (Rect.block (s := S850944x1) S1024x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S1024x2000_S2000x256_S1024x256_1_0_0_1_n_n : DotDims S1024x2000 S2000x256 S1024x256 where
  lhsContracting := [1]
  rhsContracting := [0]
  lhsNonContracting := [0]
  rhsNonContracting := [1]
  lhsBatch := []
  rhsBatch := []
  wf := dot_S1024x2000_S2000x256_S1024x256_1_0_0_1_n_n_wf
def dot_S1024x2000_S1024x256_S2000x256_0_0_1_1_n_n : DotDims S1024x2000 S1024x256 S2000x256 where
  lhsContracting := [0]
  rhsContracting := [0]
  lhsNonContracting := [1]
  rhsNonContracting := [1]
  lhsBatch := []
  rhsBatch := []
  wf := dot_S1024x2000_S1024x256_S2000x256_0_0_1_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S1024x2000_S2000x128_S1024x128_1_0_0_1_n_n : DotDims S1024x2000 S2000x128 S1024x128 where
  lhsContracting := [1]
  rhsContracting := [0]
  lhsNonContracting := [0]
  rhsNonContracting := [1]
  lhsBatch := []
  rhsBatch := []
  wf := dot_S1024x2000_S2000x128_S1024x128_1_0_0_1_n_n_wf
def dot_S1024x2000_S1024x128_S2000x128_0_0_1_1_n_n : DotDims S1024x2000 S1024x128 S2000x128 where
  lhsContracting := [0]
  rhsContracting := [0]
  lhsNonContracting := [1]
  rhsNonContracting := [1]
  lhsBatch := []
  rhsBatch := []
  wf := dot_S1024x2000_S1024x128_S2000x128_0_0_1_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v39) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v41) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v42) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S1024x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v43) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v43) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S1024x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v44) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x256, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000, .i32⟩
  | 73 => ⟨S1x800000, .i32⟩
  | 74 => ⟨S800000, .i32⟩
  | 75 => ⟨S850000, .i32⟩
  | 76 => ⟨S1x800000, .i32⟩
  | 77 => ⟨S800000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S50000x128, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x1, .f32⟩
  | 126 => ⟨S850000x128, .f32⟩
  | 127 => ⟨S850000x128, .f32⟩
  | _ => ⟨S50000x256, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S1x128, .f32⟩
  | 5 => ⟨S50000x128, .f32⟩
  | 6 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KB.Data0.lean ====
import proofs.«110469_j83107617177903_1_alg».proof.Proof.Gen.Kernel.Skeleton
import proofs.«110469_j83107617177903_1_alg».proof.Proof.Gen.Kernel.Launch
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA
open Idealize.ShloMosaic.Pipeline (Dat)

variable {F : FTy → Type} [FloatOps F]
  (V : (c : Dev nD) → (b : Ref sig .tc) → Buf (Elt F) ((c : Thread nD τ).loc b))

-- Window `w`'s block at point `t`, read off its array at the contents `V`.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The proof data of region 0 at the entry contents `V`: after the body the inputs' blocks are as before, the output's is `k0_pay1` of them.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem after0_2 (c : Dev nD) (t : Fin cfg0.N) : (dat0 V c).after 2 t = k0_pay1 (iblk0 V c 0 t) (iblk0 V c 1 t) := by dsimp only [dat0]

end Cert.Kernel.Hand

end
-- ==== Proof.KB.Data1.lean ====
import proofs.«110469_j83107617177903_1_alg».proof.Proof.Gen.Kernel.Skeleton
import proofs.«110469_j83107617177903_1_alg».proof.Proof.Gen.Kernel.Launch
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S1024x256 .f32 := Memref.whole cc1_scratch0

-- The running sum after point `n`: this point's one-hot product added to the sum before, or to zeros every 25 points.
def acc1 (c : Dev nD) : (n : ℕ) → n < cfg1.N → Vec F S1024x256 .f32
  | 0, h => k1_pay2 (grid1.coords ⟨0, h⟩) (iblk1 V c 1 ⟨0, h⟩) (iblk1 V c 0 ⟨0, h⟩) (k1_pay1 : Vec F S1024x256 .f32)
  | n + 1, h => k1_pay2 (grid1.coords ⟨n + 1, h⟩) (iblk1 V c 1 ⟨n + 1, h⟩) (iblk1 V c 0 ⟨n + 1, h⟩)
      (if (n + 1) % 25 = 0 then (k1_pay1 : Vec F S1024x256 .f32) else acc1 c n (Nat.lt_of_succ_lt h))

-- Everything the invariant holds besides the scratch that carries the sum.
abbrev Phi1_rest (c : Dev nD) : sProp 𝕄 :=
  Pipeline.scopedRestBut (Ix := Unit) (Name := ℕ) (U := UR sig nD τ) (Lvl := ℕ) (Val := Elt F) spec1 c [cc1_scratch0]

-- The invariant before position `n`: the scratch holds some sum, the one the point before left when there is one.
def Phi1 (c : Dev nD) (n : ℕ) (hn : n ≤ cfg1.N) : sProp 𝕄 :=
  iprop(iprop((∃ ds, ⌜∀ h : n ≠ 0, ds = acc1 V c (n - 1) (by omega)⌝ ∗ owns (c : Thread nD τ) scM1 fullShare ds) ∗ Phi1_rest c)
    ∗ (∃ r, prngReg c r))

-- The proof data: inputs stay at their blocks, the output block is the sum times the weights.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (iblk1 V c 2 t) (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (iblk1 V c 2 t) (acc1 V c t.val t.isLt) := by dsimp only [dat1]

theorem acc1_start (c : Dev nD) (t : Fin cfg1.N) (h : t.val % 25 = 0) :
    acc1 V c t.val t.isLt = k1_pay2 (grid1.coords t) (iblk1 V c 1 t) (iblk1 V c 0 t) (k1_pay1 : Vec F S1024x256 .f32) := by
  obtain ⟨_ | n, hn⟩ := t
  · rfl
  · exact congrArg (k1_pay2 _ _ _) (if_pos h)

theorem acc1_step (c : Dev nD) (t : Fin cfg1.N) (h : t.val % 25 ≠ 0) :
    acc1 V c t.val t.isLt = k1_pay2 (grid1.coords t) (iblk1 V c 1 t) (iblk1 V c 0 t)
      (acc1 V c (t.val - 1) (Nat.lt_of_le_of_lt (Nat.sub_le _ _) t.isLt)) := by
  obtain ⟨_ | n, hn⟩ := t
  · exact absurd (Nat.zero_mod _) h
  · exact congrArg (k1_pay2 _ _ _) (if_neg h)

end Cert.Kernel.Hand

end
-- ==== Proof.KB.Data2.lean ====
import proofs.«110469_j83107617177903_1_alg».proof.Proof.Gen.Kernel.Skeleton
import proofs.«110469_j83107617177903_1_alg».proof.Proof.Gen.Kernel.Launch
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S2000x256 .f32 := Memref.whole cc2_scratch0

-- The accumulator after point `n`: this point's one-hot product added to what the point before left, or to zeros where the reduction axis starts again.
def acc2 (c : Dev nD) : (n : ℕ) → n < cfg2.N → Vec F S2000x256 .f32
  | 0, h => k2_pay2 (grid2.coords ⟨0, h⟩) (iblk2 V c 1 ⟨0, h⟩) (iblk2 V c 0 ⟨0, h⟩) (k2_pay1 : Vec F S2000x256 .f32)
  | n + 1, h => k2_pay2 (grid2.coords ⟨n + 1, h⟩) (iblk2 V c 1 ⟨n + 1, h⟩) (iblk2 V c 0 ⟨n + 1, h⟩)
      (if (n + 1) % 831 = 0 then (k2_pay1 : Vec F S2000x256 .f32) else acc2 c n (Nat.lt_of_succ_lt h))

-- The accumulator's buffer before point `n`: at what point `n - 1` left if there is one, at anything otherwise.
abbrev acc2_at (c : Dev nD) (n : ℕ) : sProp 𝕄 :=
  iprop(∃ d, ⌜∀ k hk, n = k + 1 → d = acc2 V c k hk⌝ ∗ owns c scM2 fullShare d)

-- The region invariant around the accumulator's part `A`: whatever else the body may use, at anything.
abbrev Phi2 (c : Dev nD) (A : sProp 𝕄) : sProp 𝕄 :=
  iprop(iprop(A ∗ Pipeline.scopedRestBut (Ix := Unit) (Name := ℕ) (U := UR sig nD τ) (Lvl := ℕ) (Val := Elt F) spec2 c [cc2_scratch0])
    ∗ (∃ r, prngReg c r))

-- The proof data: the arrays as found; each input's buffer left at its block, the output's at the emitted value of the accumulator; nothing owed; full shares.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 c (acc2_at V c t.val)
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = k2_pay3 (acc2 V c t.val t.isLt) (iblk2 V c 2 t) := rfl

theorem acc2_start (c : Dev nD) (t : Fin cfg2.N) (h : t.val % 831 = 0) :
    acc2 V c t.val t.isLt = k2_pay2 (grid2.coords t) (iblk2 V c 1 t) (iblk2 V c 0 t) (k2_pay1 : Vec F S2000x256 .f32) := by
  obtain ⟨_ | n, hn⟩ := t
  · rfl
  · rw [acc2, if_pos h]

theorem acc2_step (c : Dev nD) (t : Fin cfg2.N) (h : t.val % 831 ≠ 0) :
    acc2 V c t.val t.isLt = k2_pay2 (grid2.coords t) (iblk2 V c 1 t) (iblk2 V c 0 t)
      (acc2 V c (t.val - 1) (Nat.lt_of_le_of_lt (Nat.sub_le _ _) t.isLt)) := by
  obtain ⟨_ | n, hn⟩ := t
  · exact absurd (Nat.zero_mod _) h
  · rw [acc2, if_neg h]; rfl

end Cert.Kernel.Hand

end
-- ==== Proof.KB.Data3.lean ====
import proofs.«110469_j83107617177903_1_alg».proof.Proof.Gen.Kernel.Skeleton
import proofs.«110469_j83107617177903_1_alg».proof.Proof.Gen.Kernel.Launch
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA
open Idealize.ShloMosaic.Pipeline (Dat)

variable {F : FTy → Type} [FloatOps F]
  (V : (c : Dev nD) → (b : Ref sig .tc) → Buf (Elt F) ((c : Thread nD τ).loc b))

-- Window `w`'s block at point `t`, read off its array at the contents `V`.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The proof data of region 3 at the entry contents `V`: after the body the inputs' blocks are as before, the output's is `k3_pay1` of them.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem after3_2 (c : Dev nD) (t : Fin cfg3.N) : (dat3 V c).after 2 t = k3_pay1 (iblk3 V c 0 t) (iblk3 V c 1 t) := by dsimp only [dat3]

end Cert.Kernel.Hand

end
-- ==== Proof.KB.Data4.lean ====
import proofs.«110469_j83107617177903_1_alg».proof.Proof.Gen.Kernel.Skeleton
import proofs.«110469_j83107617177903_1_alg».proof.Proof.Gen.Kernel.Launch
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S1024x128 .f32 := Memref.whole cc4_scratch0

-- The running sum after point `n`: this point's one-hot product added to the sum before, or to zeros every 25 points.
def acc4 (c : Dev nD) : (n : ℕ) → n < cfg4.N → Vec F S1024x128 .f32
  | 0, h => k4_pay2 (grid4.coords ⟨0, h⟩) (iblk4 V c 1 ⟨0, h⟩) (iblk4 V c 0 ⟨0, h⟩) (k4_pay1 : Vec F S1024x128 .f32)
  | n + 1, h => k4_pay2 (grid4.coords ⟨n + 1, h⟩) (iblk4 V c 1 ⟨n + 1, h⟩) (iblk4 V c 0 ⟨n + 1, h⟩)
      (if (n + 1) % 25 = 0 then (k4_pay1 : Vec F S1024x128 .f32) else acc4 c n (Nat.lt_of_succ_lt h))

-- Everything the invariant holds besides the scratch that carries the sum.
abbrev Phi4_rest (c : Dev nD) : sProp 𝕄 :=
  Pipeline.scopedRestBut (Ix := Unit) (Name := ℕ) (U := UR sig nD τ) (Lvl := ℕ) (Val := Elt F) spec4 c [cc4_scratch0]

-- The invariant before position `n`: the scratch holds some sum, the one the point before left when there is one.
def Phi4 (c : Dev nD) (n : ℕ) (hn : n ≤ cfg4.N) : sProp 𝕄 :=
  iprop(iprop((∃ ds, ⌜∀ h : n ≠ 0, ds = acc4 V c (n - 1) (by omega)⌝ ∗ owns (c : Thread nD τ) scM4 fullShare ds) ∗ Phi4_rest c)
    ∗ (∃ r, prngReg c r))

-- The proof data: inputs stay at their blocks, the output block is the sum times the weights.
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 2 t) (acc4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (iblk4 V c 2 t) (acc4 V c t.val t.isLt) := by dsimp only [dat4]

theorem acc4_start (c : Dev nD) (t : Fin cfg4.N) (h : t.val % 25 = 0) :
    acc4 V c t.val t.isLt = k4_pay2 (grid4.coords t) (iblk4 V c 1 t) (iblk4 V c 0 t) (k4_pay1 : Vec F S1024x128 .f32) := by
  obtain ⟨_ | n, hn⟩ := t
  · rfl
  · exact congrArg (k4_pay2 _ _ _) (if_pos h)

theorem acc4_step (c : Dev nD) (t : Fin cfg4.N) (h : t.val % 25 ≠ 0) :
    acc4 V c t.val t.isLt = k4_pay2 (grid4.coords t) (iblk4 V c 1 t) (iblk4 V c 0 t)
      (acc4 V c (t.val - 1) (Nat.lt_of_le_of_lt (Nat.sub_le _ _) t.isLt)) := by
  obtain ⟨_ | n, hn⟩ := t
  · exact absurd (Nat.zero_mod _) h
  · exact congrArg (k4_pay2 _ _ _) (if_neg h)

end Cert.Kernel.Hand

end
-- ==== Proof.KB.Data5.lean ====
import proofs.«110469_j83107617177903_1_alg».proof.Proof.Gen.Kernel.Skeleton
import proofs.«110469_j83107617177903_1_alg».proof.Proof.Gen.Kernel.Launch
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S2000x128 .f32 := Memref.whole cc5_scratch0

-- The accumulator after point `n`: this point's one-hot product added to what the point before left, or to zeros where the reduction axis starts again.
def acc5 (c : Dev nD) : (n : ℕ) → n < cfg5.N → Vec F S2000x128 .f32
  | 0, h => k5_pay2 (grid5.coords ⟨0, h⟩) (iblk5 V c 1 ⟨0, h⟩) (iblk5 V c 0 ⟨0, h⟩) (k5_pay1 : Vec F S2000x128 .f32)
  | n + 1, h => k5_pay2 (grid5.coords ⟨n + 1, h⟩) (iblk5 V c 1 ⟨n + 1, h⟩) (iblk5 V c 0 ⟨n + 1, h⟩)
      (if (n + 1) % 831 = 0 then (k5_pay1 : Vec F S2000x128 .f32) else acc5 c n (Nat.lt_of_succ_lt h))

-- The accumulator's buffer before point `n`: at what point `n - 1` left if there is one, at anything otherwise.
abbrev acc5_at (c : Dev nD) (n : ℕ) : sProp 𝕄 :=
  iprop(∃ d, ⌜∀ k hk, n = k + 1 → d = acc5 V c k hk⌝ ∗ owns c scM5 fullShare d)

-- The region invariant around the accumulator's part `A`: whatever else the body may use, at anything.
abbrev Phi5 (c : Dev nD) (A : sProp 𝕄) : sProp 𝕄 :=
  iprop(iprop(A ∗ Pipeline.scopedRestBut (Ix := Unit) (Name := ℕ) (U := UR sig nD τ) (Lvl := ℕ) (Val := Elt F) spec5 c [cc5_scratch0])
    ∗ (∃ r, prngReg c r))

-- The proof data: the arrays as found; each input's buffer left at its block, the output's at the emitted value of the accumulator; nothing owed; full shares.
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := Phi5 c (acc5_at V c t.val)
  q _ := fullShare
  owed _ := 0

theorem A_eq5 (c : Dev nD) (w : Fin cfg5.W) : (dat5 V c).A w = V c (Pipeline.arrRef spec5 w) := rfl

theorem after5_3 (c : Dev nD) (t : Fin cfg5.N) : (dat5 V c).after 3 t = k5_pay3 (acc5 V c t.val t.isLt) (iblk5 V c 2 t) := rfl

theorem acc5_start (c : Dev nD) (t : Fin cfg5.N) (h : t.val % 831 = 0) :
    acc5 V c t.val t.isLt = k5_pay2 (grid5.coords t) (iblk5 V c 1 t) (iblk5 V c 0 t) (k5_pay1 : Vec F S2000x128 .f32) := by
  obtain ⟨_ | n, hn⟩ := t
  · rfl
  · rw [acc5, if_pos h]

theorem acc5_step (c : Dev nD) (t : Fin cfg5.N) (h : t.val % 831 ≠ 0) :
    acc5 V c t.val t.isLt = k5_pay2 (grid5.coords t) (iblk5 V c 1 t) (iblk5 V c 0 t)
      (acc5 V c (t.val - 1) (Nat.lt_of_le_of_lt (Nat.sub_le _ _) t.isLt)) := by
  obtain ⟨_ | n, hn⟩ := t
  · exact absurd (Nat.zero_mod _) h
  · rw [acc5, if_neg h]; rfl

end Cert.Kernel.Hand

end
-- ==== Proof.KB.Chain.lean ====
import proofs.«110469_j83107617177903_1_alg».proof.Proof.Gen.Kernel.Regions
import proofs.«110469_j83107617177903_1_alg».proof.Proof.KB.Data0
import proofs.«110469_j83107617177903_1_alg».proof.Proof.KB.Data1
import proofs.«110469_j83107617177903_1_alg».proof.Proof.KB.Data2
import proofs.«110469_j83107617177903_1_alg».proof.Proof.KB.Data3
import proofs.«110469_j83107617177903_1_alg».proof.Proof.KB.Data4
import proofs.«110469_j83107617177903_1_alg».proof.Proof.KB.Data5

noncomputable section

namespace Cert.Kernel.Hand

open Cert.Kernel.Gen
open Idealize.ShloMosaic Idealize.ShloMosaic.TcCoe Idealize.SL Idealize.SL.BI Idealize.SL.BI.BIBase
open Idealize.ShloMosaic.Pipeline (Dat)

variable {F : FTy → Type} [FloatOps F]

variable (m : (ℓ : Loc nD τ sig) → Buf (Elt F) ℓ)

-- The form in which a region's proof data take the contents on entry: per core, read at references.
abbrev atTc (W : Dev nD → Valuation τ sig (Elt F)) : (c : Dev nD) → (b : Ref sig .tc) → Buf (Elt F) ((c : Thread nD τ).loc b) :=
  fun c b => W c b

variable (c : Dev nD)

-- The contents along @main: each region's output array takes the value its proof data give it at the grid's end.
abbrev W9 : Valuation τ sig (Elt F) := V9 m c
def o10 : Buf (Elt F) ((c : Thread nD τ).loc main_v38) := (dat0 (atTc (W9 m)) c).arrAt 2 cfg0.N
abbrev W10 : Valuation τ sig (Elt F) := Function.update (W9 m c) main_v38 (o10 m c)
def o11 : Buf (Elt F) ((c : Thread nD τ).loc main_v39) := (dat1 (atTc (W10 m)) c).arrAt 3 cfg1.N
abbrev W11 : Valuation τ sig (Elt F) := Function.update (W10 m c) main_v39 (o11 m c)
abbrev W12 : Valuation τ sig (Elt F) := StableHlo.after hostOps2 (W11 m c)
def o13 : Buf (Elt F) ((c : Thread nD τ).loc main_v41) := (dat2 (atTc (W12 m)) c).arrAt 3 cfg2.N
abbrev W13 : Valuation τ sig (Elt F) := Function.update (W12 m c) main_v41 (o13 m c)
def o14 : Buf (Elt F) ((c : Thread nD τ).loc main_v42) := (dat3 (atTc (W13 m)) c).arrAt 2 cfg3.N
abbrev W14 : Valuation τ sig (Elt F) := Function.update (W13 m c) main_v42 (o14 m c)
def o15 : Buf (Elt F) ((c : Thread nD τ).loc main_v43) := (dat4 (atTc (W14 m)) c).arrAt 3 cfg4.N
abbrev W15 : Valuation τ sig (Elt F) := Function.update (W14 m c) main_v43 (o15 m c)
abbrev W16 : Valuation τ sig (Elt F) := StableHlo.after hostOps5 (W15 m c)
def o17 : Buf (Elt F) ((c : Thread nD τ).loc main_v45) := (dat5 (atTc (W16 m)) c).arrAt 3 cfg5.N
abbrev W17 : Valuation τ sig (Elt F) := Function.update (W16 m c) main_v45 (o17 m c)

-- The same outputs as one family over all references: with it the generated valuations unfold to the W above.
def outs : Outs (F := F) := fun _ r c =>
  if h : r = main_v38 then h.symm ▸ o10 m c
  else if h : r = main_v39 then h.symm ▸ o11 m c
  else if h : r = main_v41 then h.symm ▸ o13 m c
  else if h : r = main_v42 then h.symm ▸ o14 m c
  else if h : r = main_v43 then h.symm ▸ o15 m c
  else if h : r = main_v45 then h.symm ▸ o17 m c
  else m ((c : Thread nD τ).loc r)

-- Region p's proof data are taken at the contents on entry to region p.
def pdats : (p : Fin 6) → (c : Dev nD) → Dat τ (Elt F) Unit ℕ (UR sig nD τ) ℕ (cfgs p) c
  | ⟨0, _⟩ => fun c => dat0 (atTc (W9 m)) c
  | ⟨1, _⟩ => fun c => dat1 (atTc (W10 m)) c
  | ⟨2, _⟩ => fun c => dat2 (atTc (W12 m)) c
  | ⟨3, _⟩ => fun c => dat3 (atTc (W13 m)) c
  | ⟨4, _⟩ => fun c => dat4 (atTc (W14 m)) c
  | ⟨5, _⟩ => fun c => dat5 (atTc (W16 m)) c

-- There are no obligations between cores, so the set of levels is empty.
abbrev L : GSem nD τ sig → Finset Unit := fun _ => ∅
abbrev lv : GSem nD τ sig → Unit → ℕ := fun _ _ => 0

-- The part of a core's state that every segment hands on as it found it.
abbrev R : sProp (MT nD τ sig Unit (Elt F) ℕ (UR sig nD τ) ℕ) := iprop((∃ r, prngReg c r) ∗ ∃ W, owes (c : Thread nD τ) (0 : CellTallies nD τ sig Unit) W)

-- Reading the contents after a region: the new value at its output array, the old one everywhere else.
theorem upd10_self : W10 m c (Proc.devRef .tc main_v38) = o10 m c := Function.update_self _ _ _
theorem upd10_of (r : Ref sig .tc) (h : r ≠ main_v38) : W10 m c (Proc.devRef .tc r) = W9 m c (Proc.devRef .tc r) :=
  Function.update_of_ne (StableHlo.devRef_ne_of_ne h) _ _
theorem upd11_self : W11 m c (Proc.devRef .tc main_v39) = o11 m c := Function.update_self _ _ _
theorem upd11_of (r : Ref sig .tc) (h : r ≠ main_v39) : W11 m c (Proc.devRef .tc r) = W10 m c (Proc.devRef .tc r) :=
  Function.update_of_ne (StableHlo.devRef_ne_of_ne h) _ _
theorem upd13_self : W13 m c (Proc.devRef .tc main_v41) = o13 m c := Function.update_self _ _ _
theorem upd13_of (r : Ref sig .tc) (h : r ≠ main_v41) : W13 m c (Proc.devRef .tc r) = W12 m c (Proc.devRef .tc r) :=
  Function.update_of_ne (StableHlo.devRef_ne_of_ne h) _ _
theorem upd14_self : W14 m c (Proc.devRef .tc main_v42) = o14 m c := Function.update_self _ _ _
theorem upd14_of (r : Ref sig .tc) (h : r ≠ main_v42) : W14 m c (Proc.devRef .tc r) = W13 m c (Proc.devRef .tc r) :=
  Function.update_of_ne (StableHlo.devRef_ne_of_ne h) _ _
theorem upd15_self : W15 m c (Proc.devRef .tc main_v43) = o15 m c := Function.update_self _ _ _
theorem upd15_of (r : Ref sig .tc) (h : r ≠ main_v43) : W15 m c (Proc.devRef .tc r) = W14 m c (Proc.devRef .tc r) :=
  Function.update_of_ne (StableHlo.devRef_ne_of_ne h) _ _
theorem upd17_self : W17 m c (Proc.devRef .tc main_v45) = o17 m c := Function.update_self _ _ _
theorem upd17_of (r : Ref sig .tc) (h : r ≠ main_v45) : W17 m c (Proc.devRef .tc r) = W16 m c (Proc.devRef .tc r) :=
  Function.update_of_ne (StableHlo.devRef_ne_of_ne h) _ _

end Cert.Kernel.Hand

end
-- ==== Proof.KB.SegLib.lean ====
import proofs.«110469_j83107617177903_1_alg».proof.Proof.KB.Chain
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

-- Proof data that owe nothing and bound nothing hold, at any point, exactly a core's `owes` at no tallies.
theorem owesAt_zero {cfg : Cfg sig Λ₀} {c : Dev nD} (D : Dat τ (Elt F) Unit ℕ (UR sig nD τ) ℕ cfg c) (t : Fin (cfg.N + 1))
    (ho : D.owed t = 0) (hr : D.recorded t = Set.univ) :
    D.owesAt () t ⊣⊢ (iprop(∃ W, owes (c : Thread nD τ) (0 : CellTallies nD τ sig Unit) W) : sProp 𝕄) := by
  unfold Pipeline.Dat.owesAt Pipeline.owesWithin Pipeline.Dat.bound; rw [ho, hr]
  constructor
  · iintro ⟨%W, -, H⟩; iexists W; iexact H
  · iintro ⟨%W, H⟩; iexists W; isplitr; · ipureintro; exact fun _ _ => Or.inl trivial
    iexact H

variable (m : (ℓ : Loc nD τ sig) → Buf (Elt F) ℓ) {p : Fin 6} (lf : Pipeline.LaunchFacts (nD := nD) (τ := τ) cfgs p)
  (W W' : Dev nD → Valuation τ sig (Elt F)) (o : Fin (cfgs p).W)

-- All six regions' data hold full shares, owe nothing and bound nothing.
theorem pdats_plain (p : Fin 6) (c : Dev nD) : (∀ w, (pdats m p c).q w = fullShare) ∧ (∀ t, (pdats m p c).owed t = 0)
    ∧ ∀ t, (pdats m p c).recorded t = Set.univ := by
  fin_cases p <;> exact ⟨fun _ => rfl, fun _ => rfl, fun _ => rfl⟩

-- A region whose proof data read their arrays off `W`, owe nothing and write one array, `o`'s, is a segment from `W` to `W'`.
def mkReg
    (hself : ∀ c, atTc W' c (Pipeline.arrRef (cfgs p).spec o) = (pdats m p c).arrAt o (cfgs p).N)
    (hof : ∀ c (r : Ref sig .tc), r ≠ Pipeline.arrRef (cfgs p).spec o → atTc W' c r = atTc W c r)
    (hio : ∀ w, w ≠ o → ((cfgs p).win w).isOut = false)
    (hA : ∀ c w, (pdats m p c).A w = atTc W c (Pipeline.arrRef (cfgs p).spec w))
    (hb : ∀ c, BodyObligation (pdats m p c) (defs₀ (F := F)) Variants.none () Set.univ)
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m p c).2.1
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    have hsplit := Pipeline.arrays_of_unscopedBufs (p := p) (pcfgs (F := F)) adm (pdats m) lf.win lf.arr_whole c
      ((pdats m p c).share_full (pdats_plain m p c).1) (atTc W c) (hA c)
    rw [Pipeline.unscopedBufs_held] at hsplit
    iintro ⟨⟨Hub, Hp, HO⟩, -, -⟩
    ihave H := hsplit $$ Hub
    icases H with ⟨Ha, Hrest⟩
    imodintro
    iframe
    isplitr; · unfold Pipeline.prefHeld; rw [show (Finset.univ : Finset (Fin 0)) = ∅ from rfl, BI.bigSep_empty]; iempintro
    iapply (owesAt_zero (pdats m p c) 0 ((pdats_plain m p c).2.1 0) ((pdats_plain m p c).2.2 0)).mpr; iexact HO
  hin c := by
    refine BIBase.Entails.trans ?_ (hin c)
    unfold Pipeline.ΦA
    iintro ⟨Hp, -, Hr⟩
    iframe
  hout c := by
    rw [Pipeline.ownSems0_none]
    refine BIBase.Entails.trans (hout c) ?_
    unfold Pipeline.ΦA
    iintro ⟨Hr, Hp⟩
    iframe
    iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).1)
      (atTc W c) (atTc W' c) ((pdats m p c).arrAt · (cfgs p).N)
      (fun w => if h : w = o then h ▸ (hself c).symm else
        ((pdats m p c).arrAt_in w (hio w h) _).trans ((hA c w).trans (hof c _ fun e => h (lf.win.arr_inj e)).symm))
      fun b hb => hof c b fun e => hb (Finset.mem_image.mpr ⟨o, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_zero (pdats m p c) _ ((pdats_plain m p c).2.1 _) ((pdats_plain m p c).2.2 _)).mp; iexact HO

end Cert.Kernel.Hand

end
-- ==== Proof.KB.Frame0.lean ====
import proofs.«110469_j83107617177903_1_alg».proof.Proof.KB.Data0
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b))

local notation "𝕄" => MT nD τ sig Unit (Elt F) ℕ (UR sig nD τ) ℕ

private theorem hz2 : (![0, 0] : Fin 2 → ℕ) = fun _ => 0 := by funext a; fin_cases a <;> rfl

-- On whole buffers the loads read the inputs' contents and the one store covers the output, so it reads back `k0_pay1 x0 x1`; whatever else is held is untouched.
theorem sound_kernel0 (c : Dev nD) (E : Set ℕ) (i : grid0.Coords)
    (arg1 : Memref sig .tc .vmem S2000x256 .f32) (harg1 : arg1.IsWhole)
    (arg2 : Memref sig .tc .vmem S256x256 .f32) (harg2 : arg2.IsWhole)
    (arg3 : Memref sig .tc .vmem S2000x256 .bf16) (harg3 : arg3.IsWhole)
    {D0 D1 D2 : Type} {g0 : D0 → Vec F S2000x256 .f32} {g1 : D1 → Vec F S256x256 .f32} {g2 : D2 → Vec F S2000x256 .bf16}
    {x0 : Vec F S2000x256 .f32} {x1 : Vec F S256x256 .f32} (h0 : ∀ d, g0 d = x0) (h1 : ∀ d, g1 d = x1) (R R' : sProp 𝕄) :
    iprop(R ∗ R' ∗ (∃ d, owns (c : Thread nD τ) arg1 fullShare (g0 d)) ∗ (∃ d, owns (c : Thread nD τ) arg2 fullShare (g1 d))
        ∗ (∃ d, owns (c : Thread nD τ) arg3 fullShare (g2 d)))
      ⊢ wp frame (wpE (defs₀ (F := F)) Variants.none c none) E (cc0__matmul_kernel i arg1 harg1 arg2 harg2 arg3 harg3)
          (fun _ => iprop(R ∗ R' ∗ owns (c : Thread nD τ) arg1 fullShare x0 ∗ owns (c : Thread nD τ) arg2 fullShare x1
            ∗ owns (c : Thread nD τ) arg3 fullShare (k0_pay1 x0 x1))) := by
  simp only [cc0__matmul_kernel_eq_skeleton, h0, h1]; unfold cc0__matmul_kernel_skel owns
  iintro ⟨HR, HR', ⟨%_, %f0, %hf0, H0⟩, ⟨%_, %f1, %hf1, H1⟩, ⟨%_, %f2, -, H2⟩⟩
  subst hf0 hf1
  sl_exec
  sl_step
  iframe
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ fun y => ⟨_, List.mem_singleton_self _, View.mem_set_unit_zero hz2 inb_S2000x256_S2000x256_0_0 y⟩,
    View.canon_unit_zero hz2, View.readAt_eq_ld, View.readAt_eq_ld, View.ld_unit_zero hz2, View.ld_unit_zero hz2]

-- At every point each input window holds the point's block of its array.
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

-- At every point the inputs' buffers hold their blocks, so the body's triple applies at them, the invariant and `owes` untouched.
theorem body_obligation0 (c : Dev nD) : BodyObligation (dat0 (F := F) V c) (defs₀ (F := F)) Variants.none () Set.univ := fun t => by
  rw [bigSep_W0, bigSep_W0]
  exact sound_kernel0 c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (before0_0 V c t) (before0_1 V c t) _ _

end Cert.Kernel.Hand

end
-- ==== Proof.KB.Seg0.lean ====
import proofs.«110469_j83107617177903_1_alg».proof.Proof.KB.SegLib
import proofs.«110469_j83107617177903_1_alg».proof.Proof.KB.Frame0

noncomputable section

namespace Cert.Kernel.Hand

open Cert.Kernel Cert.Kernel.Gen
open Idealize.ShloMosaic

variable {F : FTy → Type} [FloatOps F] (m : (ℓ : Loc nD τ sig) → Buf (Elt F) ℓ)

-- Region 0 as a segment of @main from the contents `W9` to `W10`, which differ at window 2's array only.
def reg0 : Pipeline.RegionSeg (pcfgs (F := F)) adm (pdats m) () defs₀ Variants.none L lv 0 :=
  mkReg m launch0 (W9 m) (W10 m) (2 : Fin cfg0.W) (upd10_self m) (upd10_of m) (by decide)
    (fun _ _ => rfl) (body_obligation0 _) (fun _ => .rfl) fun _ => .rfl

end Cert.Kernel.Hand

end
-- ==== Proof.LibBlock.lean ====
import Idealize.ShloMosaic.Lib.Pipeline.Value

namespace Cert.LibBlock

open Idealize.ShloMosaic

variable {sig : RefSig} {Val : EltTy → Type} {κ : Kind} {sp : Space} {S : Shape} {e : EltTy}
  {off : Fin S.rank → ℕ} (inb : ∀ a, off a + S.size a ≤ S.size a)

include inb in
-- A rectangle of the block's own sizes fits only at offset zero.
theorem off_zero : off = fun _ => 0 := funext fun a => by have := inb a; omega

-- A load of a whole buffer through the full rectangle reads its contents.
theorem load_whole {m : Memref sig κ sp S e} (hm : m.IsWhole) (X : S.Idx → Val e) :
    m.view.readAt Val (Rect.unit off S.size inb).toLoadRect (hm.unread X) = X := by
  rw [View.readAt_eq_ld, hm.read_unread]; exact View.ld_unit_zero (off_zero inb) inb X

variable [∀ e, Nonempty (Val e)] (v : View sig κ sp S e) (w : S.Idx → Val e) (L : List (View.Piece Val S e))

-- The full rectangle covers the block, so a store through it, made last, leaves its payload whatever was there before;
theorem store_whole (f : v.ty.Contents Val) :
    v.read Val (v.writes Val f (⟨Rect.unit off S.size inb, w⟩ :: L)) = w :=
  (View.read_writes_eq_canon v f _ fun y => ⟨_, List.Mem.head _, View.mem_set_unit_zero (off_zero inb) inb y⟩).trans
    (View.canon_cons_unit_zero (off_zero inb) inb w L)

-- and a load through it after that store reads the payload back.
theorem reload_whole :
    v.readCov (⟨Rect.unit off S.size inb, w⟩ :: L) (Rect.unit off S.size inb).toLoadRect = w := by
  rw [View.readCov_eq_canon_ld _ _ _ fun y => ⟨_, List.Mem.head _, View.mem_set_unit_zero (off_zero inb) inb y⟩,
    View.canon_cons_unit_zero (off_zero inb), View.ld_unit_zero (off_zero inb)]

end Cert.LibBlock
-- ==== Proof.KB.Frame1Run.lean ====
import proofs.«110469_j83107617177903_1_alg».proof.Proof.Gen.Kernel.Skeleton
import proofs.«110469_j83107617177903_1_alg».proof.Proof.LibBlock
import Idealize.ShloMosaic.Lib.Tactic

noncomputable section

namespace Cert.Kernel.Hand

open Cert.Kernel Cert.Kernel.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The reduction coordinate is 0: the sum starts again from zeros here.
abbrev reset1 (i : grid1.Coords) : Prop :=
  Scalar.cmpi .ne (Scalar.extui (Scalar.cmpi .eq (BitVec.ofNat 32 (i 1).val) 0#32)) 0#32 = 1#1

-- The reduction coordinate is 24: the sum is complete here and goes to the output block.
abbrev emit1 (i : grid1.Coords) : Prop := k1_cond2 i = 1#1

variable (c : Dev nD) (i : grid1.Coords)
  (arg2 : Memref sig .tc .vmem S2000x256 .bf16) (harg2 : arg2.IsWhole) (arg3 : Memref sig .tc .vmem S1024x1 .i32) (harg3 : arg3.IsWhole)
  (arg4 : Memref sig .tc .vmem S1024x1 .f32) (harg4 : arg4.IsWhole) (arg5 : Memref sig .tc .vmem S1024x256 .bf16) (harg5 : arg5.IsWhole)
  (arg6 : Memref sig .tc .vmem S1024x256 .f32) (harg6 : arg6.IsWhole)
  (x0 : Vec F S2000x256 .bf16) (x1 : Vec F S1024x1 .i32) (x2 : Vec F S1024x1 .f32) (x3 : Vec F S1024x256 .bf16) (xs : Vec F S1024x256 .f32)

-- The body's five buffers, each owned whole at named contents.
def run1_held : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare xs)

set_option maxHeartbeats 500000 in
-- The body adds this point's product to the sum (to zeros where it starts again); where the sum is complete the output block gets it times the weights.
theorem run1_body (E : Set ℕ) (K : PUnit → sProp 𝕄) :
    iprop(run1_held c arg2 arg3 arg4 arg5 arg6 x0 x1 x2 x3 xs
        ∗ (run1_held c arg2 arg3 arg4 arg5 arg6 x0 x1 x2
            (if emit1 i then k1_pay3 x2 (k1_pay2 i x1 x0 (if reset1 i then k1_pay1 else xs)) else x3)
            (k1_pay2 i x1 x0 (if reset1 i then k1_pay1 else xs)) -∗ K ⟨⟩))
      ⊢ wp frame (wpE (defs₀ (F := F)) Variants.none c none) E
          (cc1__gather_kernel i arg2 harg2 arg3 harg3 arg4 harg4 arg5 harg5 arg6 harg6) K := by
  have hp {a a' : Vec F S1024x256 .f32} (h : a = a') :=
    congr (congr (congrArg (k1_pay2 i) (load_whole inb_S1024x1_S1024x1_0_0 harg3 x1)) (load_whole inb_S2000x256_S2000x256_0_0 harg2 x0)) h
  simp only [cc1__gather_kernel_eq_skeleton]; unfold cc1__gather_kernel_skel run1_held owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  by_cases hc0 : reset1 i <;> by_cases hc1 : emit1 i <;>
  · sl_exec
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; sl_unfold_run_names
      first
      | rw [if_neg hc1]; exact harg5.read_unread _
      | rw [if_pos hc1]
        exact (store_whole _ _ _ _ _).trans (congr (congrArg k1_pay3 (load_whole _ harg4 x2)) ((reload_whole _ _ _ _).trans
          (hp (by first | (rw [if_neg hc0]; exact load_whole _ harg6 xs) | (rw [if_pos hc0]; exact reload_whole _ _ _ _)))))
    iexists _; isplitr; swap; · iexact HS
    ipureintro; sl_unfold_run_names
    exact (store_whole _ _ _ _ _).trans
      (hp (by first | (rw [if_neg hc0]; exact load_whole _ harg6 xs) | (rw [if_pos hc0]; exact reload_whole _ _ _ _)))

end Cert.Kernel.Hand

end
-- ==== Proof.KB.Frame1.lean ====
import proofs.«110469_j83107617177903_1_alg».proof.Proof.KB.Data1
import proofs.«110469_j83107617177903_1_alg».proof.Proof.KB.Frame1Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Point `t`'s edge block is `t / 25`,
theorem coord1_0 (t : Fin cfg1.N) : ((grid1.coords t) 0).val = t.val / 25 := by
  have hN : t.val < 20775 := lt_of_lt_of_eq t.isLt N_1
  show t.val / grid1.stride 0 % 831 = t.val / 25
  rw [show grid1.stride 0 = 25 by decide]; omega

-- its node block `t % 25`.
theorem coord1_1 (t : Fin cfg1.N) : ((grid1.coords t) 1).val = t.val % 25 := by
  show t.val / grid1.stride 1 % 25 = t.val % 25
  rw [show grid1.stride 1 = 1 by decide, Nat.div_one]

-- On a coordinate below 25 the first condition's word is set at 0 only, the second's at 24 only.
theorem words1 : ∀ n : Fin 25,
    ((Scalar.cmpi .ne (Scalar.extui (Scalar.cmpi .eq (BitVec.ofNat 32 n.val) 0#32)) 0#32 = 1#1) ↔ n.val = 0)
    ∧ ((Scalar.cmpi .ne (Scalar.extui (Scalar.cmpi .eq (BitVec.ofNat 32 n.val) 24#32)) 0#32 = 1#1) ↔ n.val = 24) := by
  decide

-- So the sum starts again at the points ≡ 0 (mod 25) and is complete at the points ≡ 24.
theorem words1_iff (t : Fin cfg1.N) :
    (reset1 (grid1.coords t) ↔ t.val % 25 = 0) ∧ (emit1 (grid1.coords t) ↔ t.val % 25 = 24) := by
  rw [← coord1_1 t]; exact words1 (grid1.coords t 1)

theorem idleAt1_3 (i : grid1.Coords) (h : ¬emit1 i) : cfg1.idle 3 i = true := by
  show (!(k1_cond2 i == 1#1)) = true
  rw [Bool.not_eq_true', beq_eq_false_iff_ne]; exact h

theorem liveAt1_3 (i : grid1.Coords) (h : emit1 i) : cfg1.idle 3 i = false := by
  show (!(k1_cond2 i == 1#1)) = false
  rw [Bool.not_eq_false', beq_iff_eq]; exact h

theorem index1_3 (t : Fin cfg1.N) : (cfg1.win 3).index t = ![t.val / 25, 0] := by
  have hN : t.val < 20775 := lt_of_lt_of_eq t.isLt N_1
  show cc1_transform_3 (grid1.coords t) = _
  unfold cc1_transform_3
  dsimp only
  rw [coord1_0, BitVec.toNat_ofNat, Nat.mod_eq_of_lt (by omega)]
  rfl

-- Where the sum is not complete, the next point exists and has the same edge block.
theorem noFlush1_3 (t : Fin cfg1.N) (h : ¬emit1 (grid1.coords t)) : (cfg1.win 3).flush t = false := by
  have h24 : t.val % 25 ≠ 24 := mt (words1_iff t).2.mpr h
  have hN : t.val < 20775 := lt_of_lt_of_eq t.isLt N_1
  have hnl : ¬(t.val + 1 = grid1.N) := by rw [N_1]; omega
  have hix : ¬∃ h' : t.val + 1 < grid1.N, (cfg1.win 3).index ⟨t.val + 1, h'⟩ ≠ (cfg1.win 3).index t := by
    rintro ⟨h', hne⟩
    apply hne
    rw [index1_3, index1_3]
    show ![(t.val + 1) / 25, 0] = ![t.val / 25, 0]
    rw [show (t.val + 1) / 25 = t.val / 25 by omega]
  unfold Window.flush
  rw [decide_eq_false hnl, decide_eq_false hix]
  rfl

-- The body leaves every input block in place.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

-- The output block is the sum times the weights where the sum is complete, and untouched elsewhere.
theorem leaves1_3 (c : Dev nD) (t : Fin cfg1.N) (d) :
    owns (c : Thread nD τ) ((cfg1.win 3).stage (cfg1.slots t 3)) fullShare
        (if emit1 (grid1.coords t) then k1_pay3 (iblk1 V c 2 t) (acc1 V c t.val t.isLt) else (dat1 V c).before 3 t d)
      ⊢ (dat1 V c).leavesExact 3 t := by
  by_cases h : emit1 (grid1.coords t)
  · rw [if_pos h]; exact Entails.of_eq (by unfold Dat.leavesExact; rw [liveAt1_3 _ h, after1_3])
  · rw [if_neg h, Dat.leavesExact_idle (dat1 V c) 3 t (idleAt1_3 _ h) (noFlush1_3 t h)]
    iintro H; iexists d; iexact H

-- The new sum at a point: this point's product over zeros where the sum starts again, over the sum before elsewhere.
theorem acc1_eq (c : Dev nD) (t : Fin cfg1.N) (ds)
    (hds : ∀ hn : t.val ≠ 0, ds = acc1 V c (t.val - 1) (Nat.lt_of_le_of_lt (Nat.sub_le _ _) t.isLt)) :
    acc1 V c t.val t.isLt = k1_pay2 (grid1.coords t) (iblk1 V c 1 t) (iblk1 V c 0 t)
      (if reset1 (grid1.coords t) then k1_pay1 else ds) := by
  by_cases h0 : t.val % 25 = 0
  · rw [if_pos ((words1_iff t).1.mpr h0), acc1_start V c t h0]
  · rw [if_neg (mt (words1_iff t).1.mp h0), acc1_step V c t h0, hds fun e => h0 (by rw [e])]

theorem PhiA1_eq (c : Dev nD) :
    (Pipeline.ΦA spec1 c : sProp 𝕄)
      = iprop(iprop((∃ d, owns (c : Thread nD τ) scM1 fullShare d) ∗ Phi1_rest c) ∗ (∃ r, prngReg c r)) := by
  unfold Pipeline.ΦA; rw [scopedRest1_split]; simp only [scM1, owns_whole]; rfl

set_option maxHeartbeats 400000 in
-- At every point the one body triple applies, and its if-then-else is the running sum.
theorem body_obligation1 (c : Dev nD) : BodyObligation (dat1 (F := F) V c) (defs₀ (F := F)) Variants.none () Set.univ := fun t => by
  rw [bigSep_W1, bigSep_W1]
  simp only [before1_0, before1_1, before1_2]
  rw [show (dat1 V c).owesAt () t.succ = (dat1 V c).owesAt () t.castSucc from rfl,
    show (dat1 V c).Φ t.succ = Phi1 V c (t.val + 1) t.isLt from rfl,
    show (dat1 V c).Φ t.castSucc = Phi1 V c t.val (Nat.le_of_lt t.isLt) from rfl]
  unfold Phi1
  iintro ⟨⟨⟨⟨%ds, %hds, HS⟩, Hr⟩, Hg⟩, Ho, ⟨%d0, H0⟩, ⟨%d1, H1⟩, ⟨%d2, H2⟩, ⟨%d3, H3⟩⟩
  iapply (run1_body c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (Memref.isWhole_whole cc1_scratch0)
    (iblk1 V c 0 t) (iblk1 V c 1 t) (iblk1 V c 2 t) ((dat1 V c).before 3 t d3) ds Set.univ _)
  unfold run1_held
  rw [← acc1_eq V c t ds hds]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS Hr Hg]
  · isplitl [HS Hr]
    · isplitl [HS]
      · iexists _; isplitr; swap; · iexact HS
        ipureintro; exact fun _ => rfl
      iexact Hr
    iexact Hg
  isplitl [Ho]; · iexact Ho
  isplitl [H0]; · iexact H0
  isplitl [H1]; · iexact H1
  isplitl [H2]; · iexact H2
  iapply (leaves1_3 V c t d3); iexact H3

theorem hin1 (c : Dev nD) : Pipeline.ΦA spec1 c ⊢ (dat1 V c).Φ 0 := by
  rw [PhiA1_eq]
  refine sep_mono_left (sep_mono_left ?_)
  iintro ⟨%d, H⟩; iexists d; isplitr; · ipureintro; exact fun h => absurd rfl h
  iexact H

theorem hout1 (c : Dev nD) : (dat1 V c).Φ (Fin.last cfg1.N) ⊢ Pipeline.ΦA spec1 c := by
  rw [PhiA1_eq]
  refine sep_mono_left (sep_mono_left ?_)
  iintro ⟨%d, -, H⟩; iexists d; iexact H

end Cert.Kernel.Hand

end
-- ==== Proof.KB.Seg1.lean ====
import proofs.«110469_j83107617177903_1_alg».proof.Proof.KB.SegLib
import proofs.«110469_j83107617177903_1_alg».proof.Proof.KB.Frame1

noncomputable section

namespace Cert.Kernel.Hand

open Cert.Kernel Cert.Kernel.Gen
open Idealize.ShloMosaic

variable {F : FTy → Type} [FloatOps F] (m : (ℓ : Loc nD τ sig) → Buf (Elt F) ℓ)

-- Region 1 as a segment of @main from the contents `W10` to `W11`, which differ at window 3's array only.
def reg1 : Pipeline.RegionSeg (pcfgs (F := F)) adm (pdats m) () defs₀ Variants.none L lv 1 :=
  mkReg m launch1 (W10 m) (W11 m) (3 : Fin cfg1.W) (upd11_self m) (upd11_of m) (by decide)
    (fun _ _ => rfl) (body_obligation1 _) (hin1 _) (hout1 _)

end Cert.Kernel.Hand

end
-- ==== Proof.KB.Frame2Run.lean ====
import proofs.«110469_j83107617177903_1_alg».proof.Proof.Gen.Kernel.Skeleton
import proofs.«110469_j83107617177903_1_alg».proof.Proof.LibBlock
import Idealize.ShloMosaic.Lib.Tactic

noncomputable section

namespace Cert.Kernel.Hand

open Cert.Kernel Cert.Kernel.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- A branch tests an equality of two words, widened and compared with zero: for numbers below 2^32 it is set exactly when they are equal.
theorem word_test_iff {n k : ℕ} (hn : n < 4294967296) (hk : k < 4294967296) :
    Scalar.cmpi .ne (Scalar.extui (Scalar.cmpi .eq (BitVec.ofNat 32 n) (BitVec.ofNat 32 k))) 0#32 = 1#1 ↔ n = k := by
  have e : BitVec.ofNat 32 n = BitVec.ofNat 32 k ↔ n = k := by
    rw [← BitVec.toNat_inj, BitVec.toNat_ofNat, BitVec.toNat_ofNat, Nat.mod_eq_of_lt hn, Nat.mod_eq_of_lt hk]
  refine Iff.trans ?_ (IntOp.cmpi_eq.trans e)
  rcases BitVec.eq_zero_or_eq_one (IntOp.cmpi .eq (BitVec.ofNat 32 n) (BitVec.ofNat 32 k)) with h | h <;>
    (show Scalar.cmpi .ne (Scalar.extui (IntOp.cmpi .eq (BitVec.ofNat 32 n) (BitVec.ofNat 32 k))) 0#32 = 1#1 ↔ _; rw [h]; decide)

-- The condition under which the body first zeroes the accumulator.
abbrev cond2_0 (i : grid2.Coords) : Prop :=
  (Scalar.cmpi .ne (Scalar.extui (Scalar.cmpi .eq (BitVec.ofNat 32 (i 1).val) 0#32)) 0#32) = 1#1

-- The last grid axis, of 831, runs fastest: a test of its coordinate against k is a test of the point modulo 831.
theorem hcond2_ (t : Fin grid2.N) {k : ℕ} (hk : k < 831) :
    Scalar.cmpi .ne (Scalar.extui (Scalar.cmpi .eq (BitVec.ofNat 32 ((grid2.coords t) 1).val) (BitVec.ofNat 32 k))) 0#32 = 1#1
      ↔ t.val % 831 = k := by
  rw [show ((grid2.coords t) 1).val = t.val % 831 from congrArg (· % 831) (Nat.div_one _)]
  exact word_test_iff (by omega) (by omega)

theorem hcond2_0 (t : Fin grid2.N) : cond2_0 (grid2.coords t) ↔ t.val % 831 = 0 := hcond2_ t (by omega)
theorem hcond2_1 (t : Fin grid2.N) : k2_cond2 (grid2.coords t) = 1#1 ↔ t.val % 831 = 830 := hcond2_ t (by omega)

set_option maxHeartbeats 600000 in
-- The body on whole buffers at named contents: the inputs come back unchanged, the accumulator gains this point's product (over zeros where the first test holds), and where the second test holds the output receives the emitted value of the new accumulator. The two tests never hold together.
theorem run2_pt (c : Dev nD) (i : grid2.Coords)
    (arg2 : Memref sig .tc .vmem S1024x256 .bf16) (harg2 : arg2.IsWhole) (arg3 : Memref sig .tc .vmem S1024x1 .i32) (harg3 : arg3.IsWhole)
    (arg4 : Memref sig .tc .vmem S1x256 .f32) (harg4 : arg4.IsWhole) (arg5 : Memref sig .tc .vmem S2000x256 .f32) (harg5 : arg5.IsWhole)
    (arg6 : Memref sig .tc .vmem S2000x256 .f32) (harg6 : arg6.IsWhole)
    (x0 : Vec F S1024x256 .bf16) (x1 : Vec F S1024x1 .i32) (x2 : Vec F S1x256 .f32) (x3 xs a : Vec F S2000x256 .f32)
    (ha : k2_pay2 i x1 x0 (if cond2_0 i then k2_pay1 else xs) = a) (E : Set ℕ) (K : PUnit → sProp 𝕄) :
    iprop(owns c arg2 fullShare x0 ∗ owns c arg3 fullShare x1 ∗ owns c arg4 fullShare x2
        ∗ owns c arg5 fullShare x3 ∗ owns c arg6 fullShare xs
        ∗ (iprop(owns c arg2 fullShare x0 ∗ owns c arg3 fullShare x1 ∗ owns c arg4 fullShare x2
            ∗ owns c arg5 fullShare (if k2_cond2 i = 1#1 then k2_pay3 a x2 else x3)
            ∗ owns c arg6 fullShare a) -∗ K ⟨⟩))
      ⊢ wp frame (wpE (defs₀ (F := F)) Variants.none c none) E (cc2__scatter_kernel i arg2 harg2 arg3 harg3 arg4 harg4 arg5 harg5 arg6 harg6) K := by
  subst ha
  by_cases hc0 : cond2_0 i <;> by_cases hc1 : k2_cond2 i = 1#1
  · have h : (i 1).val < 831 := (i 1).isLt
    have := (word_test_iff (by omega) (by omega)).mp hc0
    have := (word_test_iff (by omega) (by omega)).mp hc1
    omega
  all_goals
    first | rw [if_pos hc0] | rw [if_neg hc0]
    first | rw [if_pos hc1] | rw [if_neg hc1]
    simp only [cc2__scatter_kernel_eq_skeleton]; unfold cc2__scatter_kernel_skel owns
    iintro ⟨⟨%f0, %hf0, H0⟩, ⟨%f1, %hf1, H1⟩, ⟨%f2, %hf2, H2⟩, ⟨%f3, %hf3, H3⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf6
    sl_exec (disch := first | exact hc0 | exact hc1)
    sl_step
    iapply Hk
    isplitl [H0] <;> (try isplitl [H1]) <;> (try isplitl [H2]) <;> (try isplitl [H3]) <;>
      (iexists _; isplitr; swap; iassumption; ipureintro; try sl_unfold_run_names) <;>
      simp only [store_whole (S := S2000x256), reload_whole (S := S2000x256), load_whole (S := S1024x256), load_whole (S := S1024x1),
        load_whole (S := S1x256), load_whole (S := S2000x256), Memref.IsWhole.read_unread]

end Cert.Kernel.Hand

end
-- ==== Proof.KB.Frame2.lean ====
import proofs.«110469_j83107617177903_1_alg».proof.Proof.KB.Data2
import proofs.«110469_j83107617177903_1_alg».proof.Proof.KB.Frame2Run

noncomputable section

namespace Cert.Kernel.Hand

open Cert.Kernel Cert.Kernel.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- A point that is not 830 modulo 831 is not the last of the grid and shares its quotient by 831 with the next.
theorem noFlush2_3 (t : Fin cfg2.N) (h : ¬t.val % 831 = 830) : (cfg2.win 3).flush t = false := by
  refine Bool.and_eq_false_iff.mpr (.inr (Bool.or_eq_false_iff.mpr
    ⟨decide_eq_false fun e => by have := e.trans N_2; omega,
      decide_eq_false fun ⟨h', hne⟩ => hne (hreads2_3 _ _ fun a ha => ?_)⟩))
  fin_cases a
  · exact Fin.ext (show (t.val + 1) / grid2.stride 0 % 25 = t.val / grid2.stride 0 % 25 by
      rw [show grid2.stride 0 = 831 from by decide]; omega)
  · exact absurd ha (by decide)

-- Before the body each input's buffer holds that input's block of the point.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

-- The class's invariant is the region's with the scratch accumulator at anything.
theorem PhiA2_eq (c : Dev nD) : (Pipeline.ΦA spec2 c : sProp 𝕄) = Phi2 c iprop(∃ d, owns c scM2 fullShare d) := by
  unfold Pipeline.ΦA; rw [scopedRest2_split]; simp only [scM2, owns_whole]; try rfl

theorem hin2 (c : Dev nD) : Pipeline.ΦA spec2 c ⊢ (dat2 V c).Φ 0 := by
  rw [PhiA2_eq]; refine sep_mono_left (sep_mono_left ?_)
  iintro ⟨%d, H⟩; iexists d; isplitr; · ipureintro; exact fun k _ e => absurd e.symm (Nat.succ_ne_zero k)
  iexact H

theorem hout2 (c : Dev nD) : (dat2 V c).Φ (Fin.last cfg2.N) ⊢ Pipeline.ΦA spec2 c := by
  rw [PhiA2_eq]; refine sep_mono_left (sep_mono_left ?_)
  iintro ⟨%d, -, H⟩; iexists d; iexact H

-- The accumulator's equation at point `t`, from what the invariant says the buffer held.
theorem acc2_next (c : Dev nD) (t : Fin cfg2.N) (d) (hd : ∀ k hk, t.val = k + 1 → d = acc2 V c k hk) :
    k2_pay2 (grid2.coords t) (iblk2 V c 1 t) (iblk2 V c 0 t) (if cond2_0 (grid2.coords t) then k2_pay1 else d)
      = acc2 V c t.val t.isLt := by
  by_cases h0 : t.val % 831 = 0
  · rw [acc2_start V c t h0, if_pos ((hcond2_0 t).mpr h0)]
  · rw [acc2_step V c t h0, if_neg (mt (hcond2_0 t).mp h0)]; congr 1; exact hd _ _ (by omega)

abbrev ms2_ (t : Fin cfg2.N) (w : Fin cfg2.W) := (cfg2.win w).stage (cfg2.slots t w)

-- The kernel body at point `t`, on what it is called with.
abbrev body2 (t : Fin cfg2.N) : Prog (TpuEff nD τ sig (Elt F) Λ₀ .tc) PUnit :=
  cc2__scatter_kernel (grid2.coords t) (ms2_ t 0) (hstage2_0 ((cfg2.slots t 0).cast nbuf2_0)) (ms2_ t 1) (hstage2_1 ((cfg2.slots t 1).cast nbuf2_1))
    (ms2_ t 2) (hstage2_2 ((cfg2.slots t 2).cast nbuf2_2)) (ms2_ t 3) (hstage2_3 ((cfg2.slots t 3).cast nbuf2_3)) scM2 (Memref.isWhole_whole _)

-- The output's buffer, at the emitted value where the body emits and as found elsewhere, is as the proof data ask.
theorem body2_out (c : Dev nD) (t : Fin cfg2.N) (d) :
    owns c (ms2_ t 3) fullShare
        (if k2_cond2 (grid2.coords t) = 1#1 then k2_pay3 (acc2 V c t.val t.isLt) (iblk2 V c 2 t) else (dat2 V c).before 3 t d)
      ⊢ (dat2 V c).leavesExact 3 t := by
  by_cases h : k2_cond2 (grid2.coords t) = 1#1
  · rw [if_pos h, show (dat2 V c).leavesExact 3 t = owns c (ms2_ t 3) fullShare ((dat2 V c).after 3 t) from by
      unfold Dat.leavesExact; rw [show cfg2.idle 3 (grid2.coords t) = false from congrArg (fun b => !(b == 1#1)) h]]
    exact .rfl
  · rw [if_neg h, Dat.leavesExact_idle (dat2 V c) 3 t (by
      show (!(k2_cond2 (grid2.coords t) == 1#1)) = true; rw [Bool.not_eq_true', beq_eq_false_iff_ne]; exact h)
      (noFlush2_3 t (mt (hcond2_1 t).mpr h))]
    iintro H; iexists d; iexact H

-- The body at any point: the inputs' buffers hold their blocks; the invariant hands over the accumulator and takes it back at this point's contents.
theorem sound_body2 (c : Dev nD) (t : Fin cfg2.N) :
    iprop(Phi2 c (acc2_at V c t.val) ∗ (dat2 V c).owesAt () t.castSucc
        ∗ (∃ d, owns c (ms2_ t 0) fullShare ((dat2 V c).before 0 t d))
        ∗ (∃ d, owns c (ms2_ t 1) fullShare ((dat2 V c).before 1 t d))
        ∗ (∃ d, owns c (ms2_ t 2) fullShare ((dat2 V c).before 2 t d))
        ∗ (∃ d, owns c (ms2_ t 3) fullShare ((dat2 V c).before 3 t d)))
      ⊢ wp frame (wpE (defs₀ (F := F)) Variants.none c none) Set.univ (body2 t) fun _ =>
        iprop(Phi2 c (acc2_at V c (t.val + 1)) ∗ (dat2 V c).owesAt () t.castSucc
          ∗ owns c (ms2_ t 0) fullShare (iblk2 V c 0 t) ∗ owns c (ms2_ t 1) fullShare (iblk2 V c 1 t)
          ∗ owns c (ms2_ t 2) fullShare (iblk2 V c 2 t) ∗ (dat2 V c).leavesExact 3 t) := by
  simp only [before2_0, before2_1, before2_2]
  unfold Phi2 acc2_at
  iintro ⟨⟨⟨⟨%d, %hd, HS⟩, HR⟩, Hg⟩, Ho, ⟨%d0, H0⟩, ⟨%d1, H1⟩, ⟨%d2, H2⟩, ⟨%d3, H3⟩⟩
  iapply (run2_pt c _ _ _ _ _ _ _ _ _ _ _ _ _ (iblk2 V c 2 t) ((dat2 V c).before 3 t d3) _ _ (acc2_next V c t d hd) Set.univ _)
  iframe H0 H1 H2 H3 HS
  iintro ⟨H0, H1, H2, H3, HS⟩
  iframe H0 H1 H2 HR Hg Ho
  isplitl [HS]
  · iexists _; isplitr; swap; iexact HS
    ipureintro; intro k hk e; cases e; rfl
  · iapply (body2_out V c t d3); iexact H3

-- The body obligation, at every point.
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Seg2.lean ====
import proofs.«110469_j83107617177903_1_alg».proof.Proof.KB.SegLib
import proofs.«110469_j83107617177903_1_alg».proof.Proof.KB.Frame2

noncomputable section

namespace Cert.Kernel.Hand

open Cert.Kernel Cert.Kernel.Gen
open Idealize.ShloMosaic

variable {F : FTy → Type} [FloatOps F] (m : (ℓ : Loc nD τ sig) → Buf (Elt F) ℓ)

-- Region 2 as a segment of @main from the contents `W12` to `W13`, which differ at window 3's array only.
def reg2 : Pipeline.RegionSeg (pcfgs (F := F)) adm (pdats m) () defs₀ Variants.none L lv 2 :=
  mkReg m launch2 (W12 m) (W13 m) (3 : Fin cfg2.W) (upd13_self m) (upd13_of m) (by decide)
    (fun _ _ => rfl) (body_obligation2 _) (hin2 _) (hout2 _)

end Cert.Kernel.Hand

end
-- ==== Proof.KB.Frame3.lean ====
import proofs.«110469_j83107617177903_1_alg».proof.Proof.KB.Data3
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b))

local notation "𝕄" => MT nD τ sig Unit (Elt F) ℕ (UR sig nD τ) ℕ

private theorem hz2 : (![0, 0] : Fin 2 → ℕ) = fun _ => 0 := by funext a; fin_cases a <;> rfl

-- On whole buffers the loads read the inputs' contents and the one store covers the output, so it reads back `k3_pay1 x0 x1`; whatever else is held is untouched.
theorem sound_kernel3 (c : Dev nD) (E : Set ℕ) (i : grid3.Coords)
    (arg1 : Memref sig .tc .vmem S2000x256 .f32) (harg1 : arg1.IsWhole)
    (arg2 : Memref sig .tc .vmem S256x128 .f32) (harg2 : arg2.IsWhole)
    (arg3 : Memref sig .tc .vmem S2000x128 .bf16) (harg3 : arg3.IsWhole)
    {D0 D1 D2 : Type} {g0 : D0 → Vec F S2000x256 .f32} {g1 : D1 → Vec F S256x128 .f32} {g2 : D2 → Vec F S2000x128 .bf16}
    {x0 : Vec F S2000x256 .f32} {x1 : Vec F S256x128 .f32} (h0 : ∀ d, g0 d = x0) (h1 : ∀ d, g1 d = x1) (R R' : sProp 𝕄) :
    iprop(R ∗ R' ∗ (∃ d, owns (c : Thread nD τ) arg1 fullShare (g0 d)) ∗ (∃ d, owns (c : Thread nD τ) arg2 fullShare (g1 d))
        ∗ (∃ d, owns (c : Thread nD τ) arg3 fullShare (g2 d)))
      ⊢ wp frame (wpE (defs₀ (F := F)) Variants.none c none) E (cc3__matmul_kernel i arg1 harg1 arg2 harg2 arg3 harg3)
          (fun _ => iprop(R ∗ R' ∗ owns (c : Thread nD τ) arg1 fullShare x0 ∗ owns (c : Thread nD τ) arg2 fullShare x1
            ∗ owns (c : Thread nD τ) arg3 fullShare (k3_pay1 x0 x1))) := by
  simp only [cc3__matmul_kernel_eq_skeleton, h0, h1]; unfold cc3__matmul_kernel_skel owns
  iintro ⟨HR, HR', ⟨%_, %f0, %hf0, H0⟩, ⟨%_, %f1, %hf1, H1⟩, ⟨%_, %f2, -, H2⟩⟩
  subst hf0 hf1
  sl_exec
  sl_step
  iframe
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ fun y => ⟨_, List.mem_singleton_self _, View.mem_set_unit_zero hz2 inb_S2000x128_S2000x128_0_0 y⟩,
    View.canon_unit_zero hz2, View.readAt_eq_ld, View.readAt_eq_ld, View.ld_unit_zero hz2, View.ld_unit_zero hz2]

-- At every point each input window holds the point's block of its array.
theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

-- At every point the inputs' buffers hold their blocks, so the body's triple applies at them, the invariant and `owes` untouched.
theorem body_obligation3 (c : Dev nD) : BodyObligation (dat3 (F := F) V c) (defs₀ (F := F)) Variants.none () Set.univ := fun t => by
  rw [bigSep_W3, bigSep_W3]
  exact sound_kernel3 c Set.univ (grid3.coords t) (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2)) (before3_0 V c t) (before3_1 V c t) _ _

end Cert.Kernel.Hand

end
-- ==== Proof.KB.Seg3.lean ====
import proofs.«110469_j83107617177903_1_alg».proof.Proof.KB.SegLib
import proofs.«110469_j83107617177903_1_alg».proof.Proof.KB.Frame3

noncomputable section

namespace Cert.Kernel.Hand

open Cert.Kernel Cert.Kernel.Gen
open Idealize.ShloMosaic

variable {F : FTy → Type} [FloatOps F] (m : (ℓ : Loc nD τ sig) → Buf (Elt F) ℓ)

-- Region 3 as a segment of @main from the contents `W13` to `W14`, which differ at window 2's array only.
def reg3 : Pipeline.RegionSeg (pcfgs (F := F)) adm (pdats m) () defs₀ Variants.none L lv 3 :=
  mkReg m launch3 (W13 m) (W14 m) (2 : Fin cfg3.W) (upd14_self m) (upd14_of m) (by decide)
    (fun _ _ => rfl) (body_obligation3 _) (fun _ => .rfl) fun _ => .rfl

end Cert.Kernel.Hand

end
-- ==== Proof.KB.Frame4Run.lean ====
import proofs.«110469_j83107617177903_1_alg».proof.Proof.Gen.Kernel.Skeleton
import proofs.«110469_j83107617177903_1_alg».proof.Proof.LibBlock
import Idealize.ShloMosaic.Lib.Tactic

noncomputable section

namespace Cert.Kernel.Hand

open Cert.Kernel Cert.Kernel.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The reduction coordinate is 0: the sum starts again from zeros here.
abbrev reset4 (i : grid4.Coords) : Prop :=
  Scalar.cmpi .ne (Scalar.extui (Scalar.cmpi .eq (BitVec.ofNat 32 (i 1).val) 0#32)) 0#32 = 1#1

-- The reduction coordinate is 24: the sum is complete here and goes to the output block.
abbrev emit4 (i : grid4.Coords) : Prop := k4_cond2 i = 1#1

variable (c : Dev nD) (i : grid4.Coords)
  (arg2 : Memref sig .tc .vmem S2000x128 .bf16) (harg2 : arg2.IsWhole) (arg3 : Memref sig .tc .vmem S1024x1 .i32) (harg3 : arg3.IsWhole)
  (arg4 : Memref sig .tc .vmem S1024x1 .f32) (harg4 : arg4.IsWhole) (arg5 : Memref sig .tc .vmem S1024x128 .bf16) (harg5 : arg5.IsWhole)
  (arg6 : Memref sig .tc .vmem S1024x128 .f32) (harg6 : arg6.IsWhole)
  (x0 : Vec F S2000x128 .bf16) (x1 : Vec F S1024x1 .i32) (x2 : Vec F S1024x1 .f32) (x3 : Vec F S1024x128 .bf16) (xs : Vec F S1024x128 .f32)

-- The body's five buffers, each owned whole at named contents.
def run4_held : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare xs)

set_option maxHeartbeats 500000 in
-- The body adds this point's product to the sum (to zeros where it starts again); where the sum is complete the output block gets it times the weights.
theorem run4_body (E : Set ℕ) (K : PUnit → sProp 𝕄) :
    iprop(run4_held c arg2 arg3 arg4 arg5 arg6 x0 x1 x2 x3 xs
        ∗ (run4_held c arg2 arg3 arg4 arg5 arg6 x0 x1 x2
            (if emit4 i then k4_pay3 x2 (k4_pay2 i x1 x0 (if reset4 i then k4_pay1 else xs)) else x3)
            (k4_pay2 i x1 x0 (if reset4 i then k4_pay1 else xs)) -∗ K ⟨⟩))
      ⊢ wp frame (wpE (defs₀ (F := F)) Variants.none c none) E
          (cc4__gather_kernel i arg2 harg2 arg3 harg3 arg4 harg4 arg5 harg5 arg6 harg6) K := by
  have hp {a a' : Vec F S1024x128 .f32} (h : a = a') :=
    congr (congr (congrArg (k4_pay2 i) (load_whole inb_S1024x1_S1024x1_0_0 harg3 x1)) (load_whole inb_S2000x128_S2000x128_0_0 harg2 x0)) h
  simp only [cc4__gather_kernel_eq_skeleton]; unfold cc4__gather_kernel_skel run4_held owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  by_cases hc0 : reset4 i <;> by_cases hc1 : emit4 i <;>
  · sl_exec
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; sl_unfold_run_names
      first
      | rw [if_neg hc1]; exact harg5.read_unread _
      | rw [if_pos hc1]
        exact (store_whole _ _ _ _ _).trans (congr (congrArg k4_pay3 (load_whole _ harg4 x2)) ((reload_whole _ _ _ _).trans
          (hp (by first | (rw [if_neg hc0]; exact load_whole _ harg6 xs) | (rw [if_pos hc0]; exact reload_whole _ _ _ _)))))
    iexists _; isplitr; swap; · iexact HS
    ipureintro; sl_unfold_run_names
    exact (store_whole _ _ _ _ _).trans
      (hp (by first | (rw [if_neg hc0]; exact load_whole _ harg6 xs) | (rw [if_pos hc0]; exact reload_whole _ _ _ _)))

end Cert.Kernel.Hand

end
-- ==== Proof.KB.Frame4.lean ====
import proofs.«110469_j83107617177903_1_alg».proof.Proof.KB.Data4
import proofs.«110469_j83107617177903_1_alg».proof.Proof.KB.Frame4Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Point `t`'s edge block is `t / 25`,
theorem coord4_0 (t : Fin cfg4.N) : ((grid4.coords t) 0).val = t.val / 25 := by
  have hN : t.val < 20775 := lt_of_lt_of_eq t.isLt N_4
  show t.val / grid4.stride 0 % 831 = t.val / 25
  rw [show grid4.stride 0 = 25 by decide]; omega

-- its node block `t % 25`.
theorem coord4_1 (t : Fin cfg4.N) : ((grid4.coords t) 1).val = t.val % 25 := by
  show t.val / grid4.stride 1 % 25 = t.val % 25
  rw [show grid4.stride 1 = 1 by decide, Nat.div_one]

-- On a coordinate below 25 the first condition's word is set at 0 only, the second's at 24 only.
theorem words4 : ∀ n : Fin 25,
    ((Scalar.cmpi .ne (Scalar.extui (Scalar.cmpi .eq (BitVec.ofNat 32 n.val) 0#32)) 0#32 = 1#1) ↔ n.val = 0)
    ∧ ((Scalar.cmpi .ne (Scalar.extui (Scalar.cmpi .eq (BitVec.ofNat 32 n.val) 24#32)) 0#32 = 1#1) ↔ n.val = 24) := by
  decide

-- So the sum starts again at the points ≡ 0 (mod 25) and is complete at the points ≡ 24.
theorem words4_iff (t : Fin cfg4.N) :
    (reset4 (grid4.coords t) ↔ t.val % 25 = 0) ∧ (emit4 (grid4.coords t) ↔ t.val % 25 = 24) := by
  rw [← coord4_1 t]; exact words4 (grid4.coords t 1)

theorem idleAt4_3 (i : grid4.Coords) (h : ¬emit4 i) : cfg4.idle 3 i = true := by
  show (!(k4_cond2 i == 1#1)) = true
  rw [Bool.not_eq_true', beq_eq_false_iff_ne]; exact h

theorem liveAt4_3 (i : grid4.Coords) (h : emit4 i) : cfg4.idle 3 i = false := by
  show (!(k4_cond2 i == 1#1)) = false
  rw [Bool.not_eq_false', beq_iff_eq]; exact h

theorem index4_3 (t : Fin cfg4.N) : (cfg4.win 3).index t = ![t.val / 25, 0] := by
  have hN : t.val < 20775 := lt_of_lt_of_eq t.isLt N_4
  show cc4_transform_3 (grid4.coords t) = _
  unfold cc4_transform_3
  dsimp only
  rw [coord4_0, BitVec.toNat_ofNat, Nat.mod_eq_of_lt (by omega)]
  rfl

-- Where the sum is not complete, the next point exists and has the same edge block.
theorem noFlush4_3 (t : Fin cfg4.N) (h : ¬emit4 (grid4.coords t)) : (cfg4.win 3).flush t = false := by
  have h24 : t.val % 25 ≠ 24 := mt (words4_iff t).2.mpr h
  have hN : t.val < 20775 := lt_of_lt_of_eq t.isLt N_4
  have hnl : ¬(t.val + 1 = grid4.N) := by rw [N_4]; omega
  have hix : ¬∃ h' : t.val + 1 < grid4.N, (cfg4.win 3).index ⟨t.val + 1, h'⟩ ≠ (cfg4.win 3).index t := by
    rintro ⟨h', hne⟩
    apply hne
    rw [index4_3, index4_3]
    show ![(t.val + 1) / 25, 0] = ![t.val / 25, 0]
    rw [show (t.val + 1) / 25 = t.val / 25 by omega]
  unfold Window.flush
  rw [decide_eq_false hnl, decide_eq_false hix]
  rfl

-- The body leaves every input block in place.
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

-- The output block is the sum times the weights where the sum is complete, and untouched elsewhere.
theorem leaves4_3 (c : Dev nD) (t : Fin cfg4.N) (d) :
    owns (c : Thread nD τ) ((cfg4.win 3).stage (cfg4.slots t 3)) fullShare
        (if emit4 (grid4.coords t) then k4_pay3 (iblk4 V c 2 t) (acc4 V c t.val t.isLt) else (dat4 V c).before 3 t d)
      ⊢ (dat4 V c).leavesExact 3 t := by
  by_cases h : emit4 (grid4.coords t)
  · rw [if_pos h]; exact Entails.of_eq (by unfold Dat.leavesExact; rw [liveAt4_3 _ h, after4_3])
  · rw [if_neg h, Dat.leavesExact_idle (dat4 V c) 3 t (idleAt4_3 _ h) (noFlush4_3 t h)]
    iintro H; iexists d; iexact H

-- The new sum at a point: this point's product over zeros where the sum starts again, over the sum before elsewhere.
theorem acc4_eq (c : Dev nD) (t : Fin cfg4.N) (ds)
    (hds : ∀ hn : t.val ≠ 0, ds = acc4 V c (t.val - 1) (Nat.lt_of_le_of_lt (Nat.sub_le _ _) t.isLt)) :
    acc4 V c t.val t.isLt = k4_pay2 (grid4.coords t) (iblk4 V c 1 t) (iblk4 V c 0 t)
      (if reset4 (grid4.coords t) then k4_pay1 else ds) := by
  by_cases h0 : t.val % 25 = 0
  · rw [if_pos ((words4_iff t).1.mpr h0), acc4_start V c t h0]
  · rw [if_neg (mt (words4_iff t).1.mp h0), acc4_step V c t h0, hds fun e => h0 (by rw [e])]

theorem PhiA4_eq (c : Dev nD) :
    (Pipeline.ΦA spec4 c : sProp 𝕄)
      = iprop(iprop((∃ d, owns (c : Thread nD τ) scM4 fullShare d) ∗ Phi4_rest c) ∗ (∃ r, prngReg c r)) := by
  unfold Pipeline.ΦA; rw [scopedRest4_split]; simp only [scM4, owns_whole]; rfl

set_option maxHeartbeats 400000 in
-- At every point the one body triple applies, and its if-then-else is the running sum.
theorem body_obligation4 (c : Dev nD) : BodyObligation (dat4 (F := F) V c) (defs₀ (F := F)) Variants.none () Set.univ := fun t => by
  rw [bigSep_W4, bigSep_W4]
  simp only [before4_0, before4_1, before4_2]
  rw [show (dat4 V c).owesAt () t.succ = (dat4 V c).owesAt () t.castSucc from rfl,
    show (dat4 V c).Φ t.succ = Phi4 V c (t.val + 1) t.isLt from rfl,
    show (dat4 V c).Φ t.castSucc = Phi4 V c t.val (Nat.le_of_lt t.isLt) from rfl]
  unfold Phi4
  iintro ⟨⟨⟨⟨%ds, %hds, HS⟩, Hr⟩, Hg⟩, Ho, ⟨%d0, H0⟩, ⟨%d1, H1⟩, ⟨%d2, H2⟩, ⟨%d3, H3⟩⟩
  iapply (run4_body c (grid4.coords t) _ (hstage4_0 ((cfg4.slots t 0).cast nbuf4_0)) _ (hstage4_1 ((cfg4.slots t 1).cast nbuf4_1))
    _ (hstage4_2 ((cfg4.slots t 2).cast nbuf4_2)) _ (hstage4_3 ((cfg4.slots t 3).cast nbuf4_3)) _ (Memref.isWhole_whole cc4_scratch0)
    (iblk4 V c 0 t) (iblk4 V c 1 t) (iblk4 V c 2 t) ((dat4 V c).before 3 t d3) ds Set.univ _)
  unfold run4_held
  rw [← acc4_eq V c t ds hds]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS Hr Hg]
  · isplitl [HS Hr]
    · isplitl [HS]
      · iexists _; isplitr; swap; · iexact HS
        ipureintro; exact fun _ => rfl
      iexact Hr
    iexact Hg
  isplitl [Ho]; · iexact Ho
  isplitl [H0]; · iexact H0
  isplitl [H1]; · iexact H1
  isplitl [H2]; · iexact H2
  iapply (leaves4_3 V c t d3); iexact H3

theorem hin4 (c : Dev nD) : Pipeline.ΦA spec4 c ⊢ (dat4 V c).Φ 0 := by
  rw [PhiA4_eq]
  refine sep_mono_left (sep_mono_left ?_)
  iintro ⟨%d, H⟩; iexists d; isplitr; · ipureintro; exact fun h => absurd rfl h
  iexact H

theorem hout4 (c : Dev nD) : (dat4 V c).Φ (Fin.last cfg4.N) ⊢ Pipeline.ΦA spec4 c := by
  rw [PhiA4_eq]
  refine sep_mono_left (sep_mono_left ?_)
  iintro ⟨%d, -, H⟩; iexists d; iexact H

end Cert.Kernel.Hand

end
-- ==== Proof.KB.Seg4.lean ====
import proofs.«110469_j83107617177903_1_alg».proof.Proof.KB.SegLib
import proofs.«110469_j83107617177903_1_alg».proof.Proof.KB.Frame4

noncomputable section

namespace Cert.Kernel.Hand

open Cert.Kernel Cert.Kernel.Gen
open Idealize.ShloMosaic

variable {F : FTy → Type} [FloatOps F] (m : (ℓ : Loc nD τ sig) → Buf (Elt F) ℓ)

-- Region 4 as a segment of @main from the contents `W14` to `W15`, which differ at window 3's array only.
def reg4 : Pipeline.RegionSeg (pcfgs (F := F)) adm (pdats m) () defs₀ Variants.none L lv 4 :=
  mkReg m launch4 (W14 m) (W15 m) (3 : Fin cfg4.W) (upd15_self m) (upd15_of m) (by decide)
    (fun _ _ => rfl) (body_obligation4 _) (hin4 _) (hout4 _)

end Cert.Kernel.Hand

end
-- ==== Proof.KB.Frame5Run.lean ====
import proofs.«110469_j83107617177903_1_alg».proof.Proof.Gen.Kernel.Skeleton
import proofs.«110469_j83107617177903_1_alg».proof.Proof.LibBlock
import Idealize.ShloMosaic.Lib.Tactic

noncomputable section

namespace Cert.Kernel.Hand

open Cert.Kernel Cert.Kernel.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- A branch tests an equality of two words, widened and compared with zero: for numbers below 2^32 it is set exactly when they are equal.
theorem word_test_iff5 {n k : ℕ} (hn : n < 4294967296) (hk : k < 4294967296) :
    Scalar.cmpi .ne (Scalar.extui (Scalar.cmpi .eq (BitVec.ofNat 32 n) (BitVec.ofNat 32 k))) 0#32 = 1#1 ↔ n = k := by
  have e : BitVec.ofNat 32 n = BitVec.ofNat 32 k ↔ n = k := by
    rw [← BitVec.toNat_inj, BitVec.toNat_ofNat, BitVec.toNat_ofNat, Nat.mod_eq_of_lt hn, Nat.mod_eq_of_lt hk]
  refine Iff.trans ?_ (IntOp.cmpi_eq.trans e)
  rcases BitVec.eq_zero_or_eq_one (IntOp.cmpi .eq (BitVec.ofNat 32 n) (BitVec.ofNat 32 k)) with h | h <;>
    (show Scalar.cmpi .ne (Scalar.extui (IntOp.cmpi .eq (BitVec.ofNat 32 n) (BitVec.ofNat 32 k))) 0#32 = 1#1 ↔ _; rw [h]; decide)

-- The condition under which the body first zeroes the accumulator.
abbrev cond5_0 (i : grid5.Coords) : Prop :=
  (Scalar.cmpi .ne (Scalar.extui (Scalar.cmpi .eq (BitVec.ofNat 32 (i 1).val) 0#32)) 0#32) = 1#1

-- The last grid axis, of 831, runs fastest: a test of its coordinate against k is a test of the point modulo 831.
theorem hcond5_ (t : Fin grid5.N) {k : ℕ} (hk : k < 831) :
    Scalar.cmpi .ne (Scalar.extui (Scalar.cmpi .eq (BitVec.ofNat 32 ((grid5.coords t) 1).val) (BitVec.ofNat 32 k))) 0#32 = 1#1
      ↔ t.val % 831 = k := by
  rw [show ((grid5.coords t) 1).val = t.val % 831 from congrArg (· % 831) (Nat.div_one _)]
  exact word_test_iff5 (by omega) (by omega)

theorem hcond5_0 (t : Fin grid5.N) : cond5_0 (grid5.coords t) ↔ t.val % 831 = 0 := hcond5_ t (by omega)
theorem hcond5_1 (t : Fin grid5.N) : k5_cond2 (grid5.coords t) = 1#1 ↔ t.val % 831 = 830 := hcond5_ t (by omega)

set_option maxHeartbeats 600000 in
-- The body on whole buffers at named contents: the inputs come back unchanged, the accumulator gains this point's product (over zeros where the first test holds), and where the second test holds the output receives the emitted value of the new accumulator. The two tests never hold together.
theorem run5_pt (c : Dev nD) (i : grid5.Coords)
    (arg2 : Memref sig .tc .vmem S1024x128 .bf16) (harg2 : arg2.IsWhole) (arg3 : Memref sig .tc .vmem S1024x1 .i32) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (x0 : Vec F S1024x128 .bf16) (x1 : Vec F S1024x1 .i32) (x2 : Vec F S1x128 .f32) (x3 xs a : Vec F S2000x128 .f32)
    (ha : k5_pay2 i x1 x0 (if cond5_0 i then k5_pay1 else xs) = a) (E : Set ℕ) (K : PUnit → sProp 𝕄) :
    iprop(owns c arg2 fullShare x0 ∗ owns c arg3 fullShare x1 ∗ owns c arg4 fullShare x2
        ∗ owns c arg5 fullShare x3 ∗ owns c arg6 fullShare xs
        ∗ (iprop(owns c arg2 fullShare x0 ∗ owns c arg3 fullShare x1 ∗ owns c arg4 fullShare x2
            ∗ owns c arg5 fullShare (if k5_cond2 i = 1#1 then k5_pay3 a x2 else x3)
            ∗ owns c arg6 fullShare a) -∗ K ⟨⟩))
      ⊢ wp frame (wpE (defs₀ (F := F)) Variants.none c none) E (cc5__scatter_kernel i arg2 harg2 arg3 harg3 arg4 harg4 arg5 harg5 arg6 harg6) K := by
  subst ha
  by_cases hc0 : cond5_0 i <;> by_cases hc1 : k5_cond2 i = 1#1
  · have h : (i 1).val < 831 := (i 1).isLt
    have := (word_test_iff5 (by omega) (by omega)).mp hc0
    have := (word_test_iff5 (by omega) (by omega)).mp hc1
    omega
  all_goals
    first | rw [if_pos hc0] | rw [if_neg hc0]
    first | rw [if_pos hc1] | rw [if_neg hc1]
    simp only [cc5__scatter_kernel_eq_skeleton]; unfold cc5__scatter_kernel_skel owns
    iintro ⟨⟨%f0, %hf0, H0⟩, ⟨%f1, %hf1, H1⟩, ⟨%f2, %hf2, H2⟩, ⟨%f3, %hf3, H3⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf6
    sl_exec (disch := first | exact hc0 | exact hc1)
    sl_step
    iapply Hk
    isplitl [H0] <;> (try isplitl [H1]) <;> (try isplitl [H2]) <;> (try isplitl [H3]) <;>
      (iexists _; isplitr; swap; iassumption; ipureintro; try sl_unfold_run_names) <;>
      simp only [store_whole (S := S2000x128), reload_whole (S := S2000x128), load_whole (S := S1024x128), load_whole (S := S1024x1),
        load_whole (S := S1x128), load_whole (S := S2000x128), Memref.IsWhole.read_unread]

end Cert.Kernel.Hand

end
-- ==== Proof.KB.Frame5.lean ====
import proofs.«110469_j83107617177903_1_alg».proof.Proof.KB.Data5
import proofs.«110469_j83107617177903_1_alg».proof.Proof.KB.Frame5Run

noncomputable section

namespace Cert.Kernel.Hand

open Cert.Kernel Cert.Kernel.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- A point that is not 830 modulo 831 is not the last of the grid and shares its quotient by 831 with the next.
theorem noFlush5_3 (t : Fin cfg5.N) (h : ¬t.val % 831 = 830) : (cfg5.win 3).flush t = false := by
  refine Bool.and_eq_false_iff.mpr (.inr (Bool.or_eq_false_iff.mpr
    ⟨decide_eq_false fun e => by have := e.trans N_5; omega,
      decide_eq_false fun ⟨h', hne⟩ => hne (hreads5_3 _ _ fun a ha => ?_)⟩))
  fin_cases a
  · exact Fin.ext (show (t.val + 1) / grid5.stride 0 % 25 = t.val / grid5.stride 0 % 25 by
      rw [show grid5.stride 0 = 831 from by decide]; omega)
  · exact absurd ha (by decide)

-- Before the body each input's buffer holds that input's block of the point.
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

-- The class's invariant is the region's with the scratch accumulator at anything.
theorem PhiA5_eq (c : Dev nD) : (Pipeline.ΦA spec5 c : sProp 𝕄) = Phi5 c iprop(∃ d, owns c scM5 fullShare d) := by
  unfold Pipeline.ΦA; rw [scopedRest5_split]; simp only [scM5, owns_whole]; try rfl

theorem hin5 (c : Dev nD) : Pipeline.ΦA spec5 c ⊢ (dat5 V c).Φ 0 := by
  rw [PhiA5_eq]; refine sep_mono_left (sep_mono_left ?_)
  iintro ⟨%d, H⟩; iexists d; isplitr; · ipureintro; exact fun k _ e => absurd e.symm (Nat.succ_ne_zero k)
  iexact H

theorem hout5 (c : Dev nD) : (dat5 V c).Φ (Fin.last cfg5.N) ⊢ Pipeline.ΦA spec5 c := by
  rw [PhiA5_eq]; refine sep_mono_left (sep_mono_left ?_)
  iintro ⟨%d, -, H⟩; iexists d; iexact H

-- The accumulator's equation at point `t`, from what the invariant says the buffer held.
theorem acc5_next (c : Dev nD) (t : Fin cfg5.N) (d) (hd : ∀ k hk, t.val = k + 1 → d = acc5 V c k hk) :
    k5_pay2 (grid5.coords t) (iblk5 V c 1 t) (iblk5 V c 0 t) (if cond5_0 (grid5.coords t) then k5_pay1 else d)
      = acc5 V c t.val t.isLt := by
  by_cases h0 : t.val % 831 = 0
  · rw [acc5_start V c t h0, if_pos ((hcond5_0 t).mpr h0)]
  · rw [acc5_step V c t h0, if_neg (mt (hcond5_0 t).mp h0)]; congr 1; exact hd _ _ (by omega)

abbrev ms5_ (t : Fin cfg5.N) (w : Fin cfg5.W) := (cfg5.win w).stage (cfg5.slots t w)

-- The kernel body at point `t`, on what it is called with.
abbrev body5 (t : Fin cfg5.N) : Prog (TpuEff nD τ sig (Elt F) Λ₀ .tc) PUnit :=
  cc5__scatter_kernel (grid5.coords t) (ms5_ t 0) (hstage5_0 ((cfg5.slots t 0).cast nbuf5_0)) (ms5_ t 1) (hstage5_1 ((cfg5.slots t 1).cast nbuf5_1))
    (ms5_ t 2) (hstage5_2 ((cfg5.slots t 2).cast nbuf5_2)) (ms5_ t 3) (hstage5_3 ((cfg5.slots t 3).cast nbuf5_3)) scM5 (Memref.isWhole_whole _)

-- The output's buffer, at the emitted value where the body emits and as found elsewhere, is as the proof data ask.
theorem body5_out (c : Dev nD) (t : Fin cfg5.N) (d) :
    owns c (ms5_ t 3) fullShare
        (if k5_cond2 (grid5.coords t) = 1#1 then k5_pay3 (acc5 V c t.val t.isLt) (iblk5 V c 2 t) else (dat5 V c).before 3 t d)
      ⊢ (dat5 V c).leavesExact 3 t := by
  by_cases h : k5_cond2 (grid5.coords t) = 1#1
  · rw [if_pos h, show (dat5 V c).leavesExact 3 t = owns c (ms5_ t 3) fullShare ((dat5 V c).after 3 t) from by
      unfold Dat.leavesExact; rw [show cfg5.idle 3 (grid5.coords t) = false from congrArg (fun b => !(b == 1#1)) h]]
    exact .rfl
  · rw [if_neg h, Dat.leavesExact_idle (dat5 V c) 3 t (by
      show (!(k5_cond2 (grid5.coords t) == 1#1)) = true; rw [Bool.not_eq_true', beq_eq_false_iff_ne]; exact h)
      (noFlush5_3 t (mt (hcond5_1 t).mpr h))]
    iintro H; iexists d; iexact H

-- The body at any point: the inputs' buffers hold their blocks; the invariant hands over the accumulator and takes it back at this point's contents.
theorem sound_body5 (c : Dev nD) (t : Fin cfg5.N) :
    iprop(Phi5 c (acc5_at V c t.val) ∗ (dat5 V c).owesAt () t.castSucc
        ∗ (∃ d, owns c (ms5_ t 0) fullShare ((dat5 V c).before 0 t d))
        ∗ (∃ d, owns c (ms5_ t 1) fullShare ((dat5 V c).before 1 t d))
        ∗ (∃ d, owns c (ms5_ t 2) fullShare ((dat5 V c).before 2 t d))
        ∗ (∃ d, owns c (ms5_ t 3) fullShare ((dat5 V c).before 3 t d)))
      ⊢ wp frame (wpE (defs₀ (F := F)) Variants.none c none) Set.univ (body5 t) fun _ =>
        iprop(Phi5 c (acc5_at V c (t.val + 1)) ∗ (dat5 V c).owesAt () t.castSucc
          ∗ owns c (ms5_ t 0) fullShare (iblk5 V c 0 t) ∗ owns c (ms5_ t 1) fullShare (iblk5 V c 1 t)
          ∗ owns c (ms5_ t 2) fullShare (iblk5 V c 2 t) ∗ (dat5 V c).leavesExact 3 t) := by
  simp only [before5_0, before5_1, before5_2]
  unfold Phi5 acc5_at
  iintro ⟨⟨⟨⟨%d, %hd, HS⟩, HR⟩, Hg⟩, Ho, ⟨%d0, H0⟩, ⟨%d1, H1⟩, ⟨%d2, H2⟩, ⟨%d3, H3⟩⟩
  iapply (run5_pt c _ _ _ _ _ _ _ _ _ _ _ _ _ (iblk5 V c 2 t) ((dat5 V c).before 3 t d3) _ _ (acc5_next V c t d hd) Set.univ _)
  iframe H0 H1 H2 H3 HS
  iintro ⟨H0, H1, H2, H3, HS⟩
  iframe H0 H1 H2 HR Hg Ho
  isplitl [HS]
  · iexists _; isplitr; swap; iexact HS
    ipureintro; intro k hk e; cases e; rfl
  · iapply (body5_out V c t d3); iexact H3

-- The body obligation, at every point.
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Seg5.lean ====
import proofs.«110469_j83107617177903_1_alg».proof.Proof.KB.SegLib
import proofs.«110469_j83107617177903_1_alg».proof.Proof.KB.Frame5

noncomputable section

namespace Cert.Kernel.Hand

open Cert.Kernel Cert.Kernel.Gen
open Idealize.ShloMosaic

variable {F : FTy → Type} [FloatOps F] (m : (ℓ : Loc nD τ sig) → Buf (Elt F) ℓ)

-- Region 5 as a segment of @main from the contents `W16` to `W17`, which differ at window 3's array only.
def reg5 : Pipeline.RegionSeg (pcfgs (F := F)) adm (pdats m) () defs₀ Variants.none L lv 5 :=
  mkReg m launch5 (W16 m) (W17 m) (3 : Fin cfg5.W) (upd17_self m) (upd17_of m) (by decide)
    (fun _ _ => rfl) (body_obligation5 _) (hin5 _) (hout5 _)

end Cert.Kernel.Hand

end
-- ==== Proof.KB.Run.lean ====
import proofs.«110469_j83107617177903_1_alg».proof.Proof.KB.Seg0
import proofs.«110469_j83107617177903_1_alg».proof.Proof.KB.Seg1
import proofs.«110469_j83107617177903_1_alg».proof.Proof.KB.Seg2
import proofs.«110469_j83107617177903_1_alg».proof.Proof.KB.Seg3
import proofs.«110469_j83107617177903_1_alg».proof.Proof.KB.Seg4
import proofs.«110469_j83107617177903_1_alg».proof.Proof.KB.Seg5

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- @main as a list of segments, with the same rest R between any two of them.
abbrev mainSegs (c : Dev nD) : List (Seg (pcfgs (F := F)) adm (pdats m) () defs₀ Variants.none L lv) :=
  segs m (outs m) Variants.none L lv (fun _ => R) () (pdats m) (reg0 m) (reg1 m) (reg2 m) (reg3 m) (reg4 m) (reg5 m) c

-- On one core the launch's resources give the buffers held at the launch contents, beside R.
theorem launch_core (c : Dev nD) :
    iprop(unscopedBufs c (fun b => m ((c.tc : Thread nD τ).loc b)) ∗ unscopedSems0 c
        ∗ owes (c.tc : Thread nD τ) ((0 : Dev nD → CellTallies nD τ sig Unit) c) ∅
        ∗ Pipeline.launchCred (0 : Dev nD → CellTallies nD τ sig Unit) c ∗ prngReg c (ρ c) ∗ (BI.emp : sProp 𝕄))
      ⊢ (iprop(StableHlo.held (c : Thread nD τ) (Pipeline.ucRefs τ sig) (V0 m c) ∗ R c) : sProp 𝕄) := by
  rw [← Pipeline.unscopedBufs_held (Ix := Unit) (Name := ℕ) (U := UR sig nD τ) (Lvl := ℕ) c (V0 m c)]
  refine sep_mono .rfl ?_
  iintro ⟨-, HO, -, Hp, -⟩
  isplitl [Hp]; · iexists _; iexact Hp
  iexists ∅; iexact HO

-- Step by step the generated valuations with these outputs are the named contents; a link across them renames contents.
theorem outs_v38 (J : ℕ) (c : Dev nD) : outs m J main_v38 c = o10 m c := rfl
theorem outs_v39 (J : ℕ) (c : Dev nD) : outs m J main_v39 c = o11 m c := rfl
theorem outs_v41 (J : ℕ) (c : Dev nD) : outs m J main_v41 c = o13 m c := rfl
theorem outs_v42 (J : ℕ) (c : Dev nD) : outs m J main_v42 c = o14 m c := rfl
theorem outs_v43 (J : ℕ) (c : Dev nD) : outs m J main_v43 c = o15 m c := rfl
theorem V10_eq (c : Dev nD) : V10 m (outs m) c = W10 m c := by
  show Function.update (V9 m c) main_v38 (outs m 10 main_v38 c) = _; rw [outs_v38]
theorem V11_eq (c : Dev nD) : V11 m (outs m) c = W11 m c := by
  show Function.update (V10 m (outs m) c) main_v39 (outs m 11 main_v39 c) = _; rw [V10_eq, outs_v39]
theorem V12_eq (c : Dev nD) : V12 m (outs m) c = W12 m c := by
  show StableHlo.after hostOps2 (V11 m (outs m) c) = _; rw [V11_eq]
theorem V13_eq (c : Dev nD) : V13 m (outs m) c = W13 m c := by
  show Function.update (V12 m (outs m) c) main_v41 (outs m 13 main_v41 c) = _; rw [V12_eq, outs_v41]
theorem V14_eq (c : Dev nD) : V14 m (outs m) c = W14 m c := by
  show Function.update (V13 m (outs m) c) main_v42 (outs m 14 main_v42 c) = _; rw [V13_eq, outs_v42]
theorem V15_eq (c : Dev nD) : V15 m (outs m) c = W15 m c := by
  show Function.update (V14 m (outs m) c) main_v43 (outs m 15 main_v43 c) = _; rw [V14_eq, outs_v43]
theorem link {V W : Valuation τ sig (Elt F)} (h : V = W) (c : Dev nD) :
    iprop(StableHlo.held (c : Thread nD τ) (Pipeline.ucRefs τ sig) V ∗ R c)
      ⊢ (iprop(StableHlo.held (c : Thread nD τ) (Pipeline.ucRefs τ sig) W ∗ R c) : sProp 𝕄) := by subst h; exact .rfl

set_option maxHeartbeats 1600000 in
set_option backward.isDefEq.respectTransparency.types false in
-- Most links of the chain are reflexive, the launch is core by core, and the end reads the last contents.
theorem run_all : θ_run defs (onTc (τ := τ) (main (F := F))) ⟨m, fun _ => 0, ρ⟩ (fun r => ∀ c : Dev nD,
      r.2.mem ((c.tc : Thread nD τ).loc main_v45) = o17 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ Variants.none L lv m ρ main
    (mainSegs m)
    (fun c Q => by
      rewrite [main_chain c, Seg.run_eq_chain,
        show (mainSegs m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()) ] from rfl]
      exact .rfl)
    (fun c => by simp only [mainSegs, segs, Seg.pipes_host, Seg.pipes_region, Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact sep_emp.2.trans fupd_intro)
    (T₀ := fun c => iprop(StableHlo.held (c : Thread nD τ) (Pipeline.ucRefs τ sig) (V0 m c) ∗ R c))
    (Tₙ := fun c => StableHlo.held (c : Thread nD τ) (Pipeline.ucRefs τ sig) (W17 m c))
    (hch := fun c => ⟨.rfl, .rfl, .rfl, .rfl, .rfl, .rfl, .rfl, .rfl, .rfl, .rfl, .rfl,
      link (V11_eq m c).symm c, link (congrArg (StableHlo.after hostOps2) (V11_eq m c)) c, .rfl, .rfl,
      link (V15_eq m c).symm c, link (congrArg (StableHlo.after hostOps5) (V15_eq m c)) c, sep_mono .rfl sep_elim_right⟩)
    (hinit := (sep_elim_left.trans (bigSep_mono fun c _ => launch_core m ρ c)).trans fupd_intro)
    (QY := _) (hfin := fun c s' => ?_) (hQ := fun _ h => h)
  unfold StableHlo.held
  iintro ⟨Hh, HSI⟩
  ihave Hr := (pointsTo_read_all (Pipeline.ucRefs τ sig) (fun b => ((c : Thread nD τ).1, b)) (W17 m c) s') $$ [Hh HSI]
  · isplitl [Hh] <;> iassumption
  icases Hr with ⟨%h, HSI⟩
  imodintro
  isplitr
  · ipureintro
    have rd := fun (r : Ref sig .tc) hr => h (Proc.devRef .tc r) (Finset.mem_filter.mpr ⟨StableHlo.devRef_mem_tcRefs r, hr⟩)
    exact ⟨(rd main_v45 (by decide)).trans (upd17_self m c),
      (rd main_arg0 (by decide)).trans (V17_main_arg0 m (outs m) c), (rd main_arg1 (by decide)).trans (V17_main_arg1 m (outs m) c),
      (rd main_arg2 (by decide)).trans (V17_main_arg2 m (outs m) c), (rd main_arg3 (by decide)).trans (V17_main_arg3 m (outs m) c),
      (rd main_arg4 (by decide)).trans (V17_main_arg4 m (outs m) c), (rd main_arg5 (by decide)).trans (V17_main_arg5 m (outs m) c)⟩
  · iexact HSI

-- Forgetting the value of the result leaves the frame claim.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.Kernel.Hand

end
-- ==== Proof.KI.Data0.lean ====
import proofs.«110469_j83107617177903_1_alg».proof.Proof.Gen.KernelIdeal.Skeleton
import proofs.«110469_j83107617177903_1_alg».proof.Proof.Gen.KernelIdeal.Launch
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat)

variable {F : FTy → Type} [FloatOps F]
  (V : (c : Dev nD) → (b : Ref sig .tc) → Buf (Elt F) ((c : Thread nD τ).loc b))

-- Window `w`'s block at point `t`, read off its array at the contents `V`.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The proof data of region 0 at the entry contents `V`: after the body the inputs' blocks are as before, the output's is `k0_pay1` of them.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem after0_2 (c : Dev nD) (t : Fin cfg0.N) : (dat0 V c).after 2 t = k0_pay1 (iblk0 V c 0 t) (iblk0 V c 1 t) := by dsimp only [dat0]

end Cert.KernelIdeal.Hand

end
-- ==== Proof.KI.Data1.lean ====
import proofs.«110469_j83107617177903_1_alg».proof.Proof.Gen.KernelIdeal.Skeleton
import proofs.«110469_j83107617177903_1_alg».proof.Proof.Gen.KernelIdeal.Launch
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S1024x256 .f32 := Memref.whole cc1_scratch0

-- The running sum after point `n`: this point's one-hot product added to the sum before, or to zeros every 25 points.
def acc1 (c : Dev nD) : (n : ℕ) → n < cfg1.N → Vec F S1024x256 .f32
  | 0, h => k1_pay2 (grid1.coords ⟨0, h⟩) (iblk1 V c 1 ⟨0, h⟩) (iblk1 V c 0 ⟨0, h⟩) (k1_pay1 : Vec F S1024x256 .f32)
  | n + 1, h => k1_pay2 (grid1.coords ⟨n + 1, h⟩) (iblk1 V c 1 ⟨n + 1, h⟩) (iblk1 V c 0 ⟨n + 1, h⟩)
      (if (n + 1) % 25 = 0 then (k1_pay1 : Vec F S1024x256 .f32) else acc1 c n (Nat.lt_of_succ_lt h))

-- Everything the invariant holds besides the scratch that carries the sum.
abbrev Phi1_rest (c : Dev nD) : sProp 𝕄 :=
  Pipeline.scopedRestBut (Ix := Unit) (Name := ℕ) (U := UR sig nD τ) (Lvl := ℕ) (Val := Elt F) spec1 c [cc1_scratch0]

-- The invariant before position `n`: the scratch holds some sum, the one the point before left when there is one.
def Phi1 (c : Dev nD) (n : ℕ) (hn : n ≤ cfg1.N) : sProp 𝕄 :=
  iprop(iprop((∃ ds, ⌜∀ h : n ≠ 0, ds = acc1 V c (n - 1) (by omega)⌝ ∗ owns (c : Thread nD τ) scM1 fullShare ds) ∗ Phi1_rest c)
    ∗ (∃ r, prngReg c r))

-- The proof data: inputs stay at their blocks, the output block is the sum times the weights.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (iblk1 V c 2 t) (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (iblk1 V c 2 t) (acc1 V c t.val t.isLt) := by dsimp only [dat1]

theorem acc1_start (c : Dev nD) (t : Fin cfg1.N) (h : t.val % 25 = 0) :
    acc1 V c t.val t.isLt = k1_pay2 (grid1.coords t) (iblk1 V c 1 t) (iblk1 V c 0 t) (k1_pay1 : Vec F S1024x256 .f32) := by
  obtain ⟨_ | n, hn⟩ := t
  · rfl
  · exact congrArg (k1_pay2 _ _ _) (if_pos h)

theorem acc1_step (c : Dev nD) (t : Fin cfg1.N) (h : t.val % 25 ≠ 0) :
    acc1 V c t.val t.isLt = k1_pay2 (grid1.coords t) (iblk1 V c 1 t) (iblk1 V c 0 t)
      (acc1 V c (t.val - 1) (Nat.lt_of_le_of_lt (Nat.sub_le _ _) t.isLt)) := by
  obtain ⟨_ | n, hn⟩ := t
  · exact absurd (Nat.zero_mod _) h
  · exact congrArg (k1_pay2 _ _ _) (if_neg h)

end Cert.KernelIdeal.Hand

end
-- ==== Proof.KI.Data2.lean ====
import proofs.«110469_j83107617177903_1_alg».proof.Proof.Gen.KernelIdeal.Skeleton
import proofs.«110469_j83107617177903_1_alg».proof.Proof.Gen.KernelIdeal.Launch
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S2000x256 .f32 := Memref.whole cc2_scratch0

-- The accumulator after point `n`: this point's one-hot product added to what the point before left, or to zeros where the reduction axis starts again.
def acc2 (c : Dev nD) : (n : ℕ) → n < cfg2.N → Vec F S2000x256 .f32
  | 0, h => k2_pay2 (grid2.coords ⟨0, h⟩) (iblk2 V c 1 ⟨0, h⟩) (iblk2 V c 0 ⟨0, h⟩) (k2_pay1 : Vec F S2000x256 .f32)
  | n + 1, h => k2_pay2 (grid2.coords ⟨n + 1, h⟩) (iblk2 V c 1 ⟨n + 1, h⟩) (iblk2 V c 0 ⟨n + 1, h⟩)
      (if (n + 1) % 831 = 0 then (k2_pay1 : Vec F S2000x256 .f32) else acc2 c n (Nat.lt_of_succ_lt h))

-- The accumulator's buffer before point `n`: at what point `n - 1` left if there is one, at anything otherwise.
abbrev acc2_at (c : Dev nD) (n : ℕ) : sProp 𝕄 :=
  iprop(∃ d, ⌜∀ k hk, n = k + 1 → d = acc2 V c k hk⌝ ∗ owns c scM2 fullShare d)

-- The region invariant around the accumulator's part `A`: whatever else the body may use, at anything.
abbrev Phi2 (c : Dev nD) (A : sProp 𝕄) : sProp 𝕄 :=
  iprop(iprop(A ∗ Pipeline.scopedRestBut (Ix := Unit) (Name := ℕ) (U := UR sig nD τ) (Lvl := ℕ) (Val := Elt F) spec2 c [cc2_scratch0])
    ∗ (∃ r, prngReg c r))

-- The proof data: the arrays as found; each input's buffer left at its block, the output's at the emitted value of the accumulator; nothing owed; full shares.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 c (acc2_at V c t.val)
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = k2_pay3 (acc2 V c t.val t.isLt) (iblk2 V c 2 t) := rfl

theorem acc2_start (c : Dev nD) (t : Fin cfg2.N) (h : t.val % 831 = 0) :
    acc2 V c t.val t.isLt = k2_pay2 (grid2.coords t) (iblk2 V c 1 t) (iblk2 V c 0 t) (k2_pay1 : Vec F S2000x256 .f32) := by
  obtain ⟨_ | n, hn⟩ := t
  · rfl
  · rw [acc2, if_pos h]

theorem acc2_step (c : Dev nD) (t : Fin cfg2.N) (h : t.val % 831 ≠ 0) :
    acc2 V c t.val t.isLt = k2_pay2 (grid2.coords t) (iblk2 V c 1 t) (iblk2 V c 0 t)
      (acc2 V c (t.val - 1) (Nat.lt_of_le_of_lt (Nat.sub_le _ _) t.isLt)) := by
  obtain ⟨_ | n, hn⟩ := t
  · exact absurd (Nat.zero_mod _) h
  · rw [acc2, if_neg h]; rfl

end Cert.KernelIdeal.Hand

end
-- ==== Proof.KI.Data3.lean ====
import proofs.«110469_j83107617177903_1_alg».proof.Proof.Gen.KernelIdeal.Skeleton
import proofs.«110469_j83107617177903_1_alg».proof.Proof.Gen.KernelIdeal.Launch
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat)

variable {F : FTy → Type} [FloatOps F]
  (V : (c : Dev nD) → (b : Ref sig .tc) → Buf (Elt F) ((c : Thread nD τ).loc b))

-- Window `w`'s block at point `t`, read off its array at the contents `V`.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The proof data of region 3 at the entry contents `V`: after the body the inputs' blocks are as before, the output's is `k3_pay1` of them.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem after3_2 (c : Dev nD) (t : Fin cfg3.N) : (dat3 V c).after 2 t = k3_pay1 (iblk3 V c 0 t) (iblk3 V c 1 t) := by dsimp only [dat3]

end Cert.KernelIdeal.Hand

end
-- ==== Proof.KI.Data4.lean ====
import proofs.«110469_j83107617177903_1_alg».proof.Proof.Gen.KernelIdeal.Skeleton
import proofs.«110469_j83107617177903_1_alg».proof.Proof.Gen.KernelIdeal.Launch
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S1024x128 .f32 := Memref.whole cc4_scratch0

-- The running sum after point `n`: this point's one-hot product added to the sum before, or to zeros every 25 points.
def acc4 (c : Dev nD) : (n : ℕ) → n < cfg4.N → Vec F S1024x128 .f32
  | 0, h => k4_pay2 (grid4.coords ⟨0, h⟩) (iblk4 V c 1 ⟨0, h⟩) (iblk4 V c 0 ⟨0, h⟩) (k4_pay1 : Vec F S1024x128 .f32)
  | n + 1, h => k4_pay2 (grid4.coords ⟨n + 1, h⟩) (iblk4 V c 1 ⟨n + 1, h⟩) (iblk4 V c 0 ⟨n + 1, h⟩)
      (if (n + 1) % 25 = 0 then (k4_pay1 : Vec F S1024x128 .f32) else acc4 c n (Nat.lt_of_succ_lt h))

-- Everything the invariant holds besides the scratch that carries the sum.
abbrev Phi4_rest (c : Dev nD) : sProp 𝕄 :=
  Pipeline.scopedRestBut (Ix := Unit) (Name := ℕ) (U := UR sig nD τ) (Lvl := ℕ) (Val := Elt F) spec4 c [cc4_scratch0]

-- The invariant before position `n`: the scratch holds some sum, the one the point before left when there is one.
def Phi4 (c : Dev nD) (n : ℕ) (hn : n ≤ cfg4.N) : sProp 𝕄 :=
  iprop(iprop((∃ ds, ⌜∀ h : n ≠ 0, ds = acc4 V c (n - 1) (by omega)⌝ ∗ owns (c : Thread nD τ) scM4 fullShare ds) ∗ Phi4_rest c)
    ∗ (∃ r, prngReg c r))

-- The proof data: inputs stay at their blocks, the output block is the sum times the weights.
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 2 t) (acc4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (iblk4 V c 2 t) (acc4 V c t.val t.isLt) := by dsimp only [dat4]

theorem acc4_start (c : Dev nD) (t : Fin cfg4.N) (h : t.val % 25 = 0) :
    acc4 V c t.val t.isLt = k4_pay2 (grid4.coords t) (iblk4 V c 1 t) (iblk4 V c 0 t) (k4_pay1 : Vec F S1024x128 .f32) := by
  obtain ⟨_ | n, hn⟩ := t
  · rfl
  · exact congrArg (k4_pay2 _ _ _) (if_pos h)

theorem acc4_step (c : Dev nD) (t : Fin cfg4.N) (h : t.val % 25 ≠ 0) :
    acc4 V c t.val t.isLt = k4_pay2 (grid4.coords t) (iblk4 V c 1 t) (iblk4 V c 0 t)
      (acc4 V c (t.val - 1) (Nat.lt_of_le_of_lt (Nat.sub_le _ _) t.isLt)) := by
  obtain ⟨_ | n, hn⟩ := t
  · exact absurd (Nat.zero_mod _) h
  · exact congrArg (k4_pay2 _ _ _) (if_neg h)

end Cert.KernelIdeal.Hand

end
-- ==== Proof.KI.Data5.lean ====
import proofs.«110469_j83107617177903_1_alg».proof.Proof.Gen.KernelIdeal.Skeleton
import proofs.«110469_j83107617177903_1_alg».proof.Proof.Gen.KernelIdeal.Launch
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S2000x128 .f32 := Memref.whole cc5_scratch0

-- The accumulator after point `n`: this point's one-hot product added to what the point before left, or to zeros where the reduction axis starts again.
def acc5 (c : Dev nD) : (n : ℕ) → n < cfg5.N → Vec F S2000x128 .f32
  | 0, h => k5_pay2 (grid5.coords ⟨0, h⟩) (iblk5 V c 1 ⟨0, h⟩) (iblk5 V c 0 ⟨0, h⟩) (k5_pay1 : Vec F S2000x128 .f32)
  | n + 1, h => k5_pay2 (grid5.coords ⟨n + 1, h⟩) (iblk5 V c 1 ⟨n + 1, h⟩) (iblk5 V c 0 ⟨n + 1, h⟩)
      (if (n + 1) % 831 = 0 then (k5_pay1 : Vec F S2000x128 .f32) else acc5 c n (Nat.lt_of_succ_lt h))

-- The accumulator's buffer before point `n`: at what point `n - 1` left if there is one, at anything otherwise.
abbrev acc5_at (c : Dev nD) (n : ℕ) : sProp 𝕄 :=
  iprop(∃ d, ⌜∀ k hk, n = k + 1 → d = acc5 V c k hk⌝ ∗ owns c scM5 fullShare d)

-- The region invariant around the accumulator's part `A`: whatever else the body may use, at anything.
abbrev Phi5 (c : Dev nD) (A : sProp 𝕄) : sProp 𝕄 :=
  iprop(iprop(A ∗ Pipeline.scopedRestBut (Ix := Unit) (Name := ℕ) (U := UR sig nD τ) (Lvl := ℕ) (Val := Elt F) spec5 c [cc5_scratch0])
    ∗ (∃ r, prngReg c r))

-- The proof data: the arrays as found; each input's buffer left at its block, the output's at the emitted value of the accumulator; nothing owed; full shares.
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := Phi5 c (acc5_at V c t.val)
  q _ := fullShare
  owed _ := 0

theorem A_eq5 (c : Dev nD) (w : Fin cfg5.W) : (dat5 V c).A w = V c (Pipeline.arrRef spec5 w) := rfl

theorem after5_3 (c : Dev nD) (t : Fin cfg5.N) : (dat5 V c).after 3 t = k5_pay3 (acc5 V c t.val t.isLt) (iblk5 V c 2 t) := rfl

theorem acc5_start (c : Dev nD) (t : Fin cfg5.N) (h : t.val % 831 = 0) :
    acc5 V c t.val t.isLt = k5_pay2 (grid5.coords t) (iblk5 V c 1 t) (iblk5 V c 0 t) (k5_pay1 : Vec F S2000x128 .f32) := by
  obtain ⟨_ | n, hn⟩ := t
  · rfl
  · rw [acc5, if_pos h]

theorem acc5_step (c : Dev nD) (t : Fin cfg5.N) (h : t.val % 831 ≠ 0) :
    acc5 V c t.val t.isLt = k5_pay2 (grid5.coords t) (iblk5 V c 1 t) (iblk5 V c 0 t)
      (acc5 V c (t.val - 1) (Nat.lt_of_le_of_lt (Nat.sub_le _ _) t.isLt)) := by
  obtain ⟨_ | n, hn⟩ := t
  · exact absurd (Nat.zero_mod _) h
  · rw [acc5, if_neg h]; rfl

end Cert.KernelIdeal.Hand

end
-- ==== Proof.KI.Chain.lean ====
import proofs.«110469_j83107617177903_1_alg».proof.Proof.Gen.KernelIdeal.Regions
import proofs.«110469_j83107617177903_1_alg».proof.Proof.KI.Data0
import proofs.«110469_j83107617177903_1_alg».proof.Proof.KI.Data1
import proofs.«110469_j83107617177903_1_alg».proof.Proof.KI.Data2
import proofs.«110469_j83107617177903_1_alg».proof.Proof.KI.Data3
import proofs.«110469_j83107617177903_1_alg».proof.Proof.KI.Data4
import proofs.«110469_j83107617177903_1_alg».proof.Proof.KI.Data5

noncomputable section

namespace Cert.KernelIdeal.Hand

open Cert.KernelIdeal.Gen
open Idealize.ShloMosaic Idealize.ShloMosaic.TcCoe Idealize.SL Idealize.SL.BI Idealize.SL.BI.BIBase
open Idealize.ShloMosaic.Pipeline (Dat)

variable {F : FTy → Type} [FloatOps F]

variable (m : (ℓ : Loc nD τ sig) → Buf (Elt F) ℓ)

-- The form in which a region's proof data take the contents on entry: per core, read at references.
abbrev atTc (W : Dev nD → Valuation τ sig (Elt F)) : (c : Dev nD) → (b : Ref sig .tc) → Buf (Elt F) ((c : Thread nD τ).loc b) :=
  fun c b => W c b

variable (c : Dev nD)

-- The contents along @main: each region's output array takes the value its proof data give it at the grid's end.
abbrev W9 : Valuation τ sig (Elt F) := V9 m c
def o10 : Buf (Elt F) ((c : Thread nD τ).loc main_v38) := (dat0 (atTc (W9 m)) c).arrAt 2 cfg0.N
abbrev W10 : Valuation τ sig (Elt F) := Function.update (W9 m c) main_v38 (o10 m c)
def o11 : Buf (Elt F) ((c : Thread nD τ).loc main_v39) := (dat1 (atTc (W10 m)) c).arrAt 3 cfg1.N
abbrev W11 : Valuation τ sig (Elt F) := Function.update (W10 m c) main_v39 (o11 m c)
abbrev W12 : Valuation τ sig (Elt F) := StableHlo.after hostOps2 (W11 m c)
def o13 : Buf (Elt F) ((c : Thread nD τ).loc main_v41) := (dat2 (atTc (W12 m)) c).arrAt 3 cfg2.N
abbrev W13 : Valuation τ sig (Elt F) := Function.update (W12 m c) main_v41 (o13 m c)
def o14 : Buf (Elt F) ((c : Thread nD τ).loc main_v42) := (dat3 (atTc (W13 m)) c).arrAt 2 cfg3.N
abbrev W14 : Valuation τ sig (Elt F) := Function.update (W13 m c) main_v42 (o14 m c)
def o15 : Buf (Elt F) ((c : Thread nD τ).loc main_v43) := (dat4 (atTc (W14 m)) c).arrAt 3 cfg4.N
abbrev W15 : Valuation τ sig (Elt F) := Function.update (W14 m c) main_v43 (o15 m c)
abbrev W16 : Valuation τ sig (Elt F) := StableHlo.after hostOps5 (W15 m c)
def o17 : Buf (Elt F) ((c : Thread nD τ).loc main_v45) := (dat5 (atTc (W16 m)) c).arrAt 3 cfg5.N
abbrev W17 : Valuation τ sig (Elt F) := Function.update (W16 m c) main_v45 (o17 m c)

-- The same outputs as one family over all references: with it the generated valuations unfold to the W above.
def outs : Outs (F := F) := fun _ r c =>
  if h : r = main_v38 then h.symm ▸ o10 m c
  else if h : r = main_v39 then h.symm ▸ o11 m c
  else if h : r = main_v41 then h.symm ▸ o13 m c
  else if h : r = main_v42 then h.symm ▸ o14 m c
  else if h : r = main_v43 then h.symm ▸ o15 m c
  else if h : r = main_v45 then h.symm ▸ o17 m c
  else m ((c : Thread nD τ).loc r)

-- Region p's proof data are taken at the contents on entry to region p.
def pdats : (p : Fin 6) → (c : Dev nD) → Dat τ (Elt F) Unit ℕ (UR sig nD τ) ℕ (cfgs p) c
  | ⟨0, _⟩ => fun c => dat0 (atTc (W9 m)) c
  | ⟨1, _⟩ => fun c => dat1 (atTc (W10 m)) c
  | ⟨2, _⟩ => fun c => dat2 (atTc (W12 m)) c
  | ⟨3, _⟩ => fun c => dat3 (atTc (W13 m)) c
  | ⟨4, _⟩ => fun c => dat4 (atTc (W14 m)) c
  | ⟨5, _⟩ => fun c => dat5 (atTc (W16 m)) c

-- There are no obligations between cores, so the set of levels is empty.
abbrev L : GSem nD τ sig → Finset Unit := fun _ => ∅
abbrev lv : GSem nD τ sig → Unit → ℕ := fun _ _ => 0

-- The part of a core's state that every segment hands on as it found it.
abbrev R : sProp (MT nD τ sig Unit (Elt F) ℕ (UR sig nD τ) ℕ) := iprop((∃ r, prngReg c r) ∗ ∃ W, owes (c : Thread nD τ) (0 : CellTallies nD τ sig Unit) W)

-- Reading the contents after a region: the new value at its output array, the old one everywhere else.
theorem upd10_self : W10 m c (Proc.devRef .tc main_v38) = o10 m c := Function.update_self _ _ _
theorem upd10_of (r : Ref sig .tc) (h : r ≠ main_v38) : W10 m c (Proc.devRef .tc r) = W9 m c (Proc.devRef .tc r) :=
  Function.update_of_ne (StableHlo.devRef_ne_of_ne h) _ _
theorem upd11_self : W11 m c (Proc.devRef .tc main_v39) = o11 m c := Function.update_self _ _ _
theorem upd11_of (r : Ref sig .tc) (h : r ≠ main_v39) : W11 m c (Proc.devRef .tc r) = W10 m c (Proc.devRef .tc r) :=
  Function.update_of_ne (StableHlo.devRef_ne_of_ne h) _ _
theorem upd13_self : W13 m c (Proc.devRef .tc main_v41) = o13 m c := Function.update_self _ _ _
theorem upd13_of (r : Ref sig .tc) (h : r ≠ main_v41) : W13 m c (Proc.devRef .tc r) = W12 m c (Proc.devRef .tc r) :=
  Function.update_of_ne (StableHlo.devRef_ne_of_ne h) _ _
theorem upd14_self : W14 m c (Proc.devRef .tc main_v42) = o14 m c := Function.update_self _ _ _
theorem upd14_of (r : Ref sig .tc) (h : r ≠ main_v42) : W14 m c (Proc.devRef .tc r) = W13 m c (Proc.devRef .tc r) :=
  Function.update_of_ne (StableHlo.devRef_ne_of_ne h) _ _
theorem upd15_self : W15 m c (Proc.devRef .tc main_v43) = o15 m c := Function.update_self _ _ _
theorem upd15_of (r : Ref sig .tc) (h : r ≠ main_v43) : W15 m c (Proc.devRef .tc r) = W14 m c (Proc.devRef .tc r) :=
  Function.update_of_ne (StableHlo.devRef_ne_of_ne h) _ _
theorem upd17_self : W17 m c (Proc.devRef .tc main_v45) = o17 m c := Function.update_self _ _ _
theorem upd17_of (r : Ref sig .tc) (h : r ≠ main_v45) : W17 m c (Proc.devRef .tc r) = W16 m c (Proc.devRef .tc r) :=
  Function.update_of_ne (StableHlo.devRef_ne_of_ne h) _ _

end Cert.KernelIdeal.Hand

end
-- ==== Proof.KI.SegLib.lean ====
import proofs.«110469_j83107617177903_1_alg».proof.Proof.KI.Chain
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

-- Proof data that owe nothing and bound nothing hold, at any point, exactly a core's `owes` at no tallies.
theorem owesAt_zero {cfg : Cfg sig Λ₀} {c : Dev nD} (D : Dat τ (Elt F) Unit ℕ (UR sig nD τ) ℕ cfg c) (t : Fin (cfg.N + 1))
    (ho : D.owed t = 0) (hr : D.recorded t = Set.univ) :
    D.owesAt () t ⊣⊢ (iprop(∃ W, owes (c : Thread nD τ) (0 : CellTallies nD τ sig Unit) W) : sProp 𝕄) := by
  unfold Pipeline.Dat.owesAt Pipeline.owesWithin Pipeline.Dat.bound; rw [ho, hr]
  constructor
  · iintro ⟨%W, -, H⟩; iexists W; iexact H
  · iintro ⟨%W, H⟩; iexists W; isplitr; · ipureintro; exact fun _ _ => Or.inl trivial
    iexact H

variable (m : (ℓ : Loc nD τ sig) → Buf (Elt F) ℓ) {p : Fin 6} (lf : Pipeline.LaunchFacts (nD := nD) (τ := τ) cfgs p)
  (W W' : Dev nD → Valuation τ sig (Elt F)) (o : Fin (cfgs p).W)

-- All six regions' data hold full shares, owe nothing and bound nothing.
theorem pdats_plain (p : Fin 6) (c : Dev nD) : (∀ w, (pdats m p c).q w = fullShare) ∧ (∀ t, (pdats m p c).owed t = 0)
    ∧ ∀ t, (pdats m p c).recorded t = Set.univ := by
  fin_cases p <;> exact ⟨fun _ => rfl, fun _ => rfl, fun _ => rfl⟩

-- A region whose proof data read their arrays off `W`, owe nothing and write one array, `o`'s, is a segment from `W` to `W'`.
def mkReg
    (hself : ∀ c, atTc W' c (Pipeline.arrRef (cfgs p).spec o) = (pdats m p c).arrAt o (cfgs p).N)
    (hof : ∀ c (r : Ref sig .tc), r ≠ Pipeline.arrRef (cfgs p).spec o → atTc W' c r = atTc W c r)
    (hio : ∀ w, w ≠ o → ((cfgs p).win w).isOut = false)
    (hA : ∀ c w, (pdats m p c).A w = atTc W c (Pipeline.arrRef (cfgs p).spec w))
    (hb : ∀ c, BodyObligation (pdats m p c) (defs₀ (F := F)) Variants.none () Set.univ)
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m p c).2.1
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    have hsplit := Pipeline.arrays_of_unscopedBufs (p := p) (pcfgs (F := F)) adm (pdats m) lf.win lf.arr_whole c
      ((pdats m p c).share_full (pdats_plain m p c).1) (atTc W c) (hA c)
    rw [Pipeline.unscopedBufs_held] at hsplit
    iintro ⟨⟨Hub, Hp, HO⟩, -, -⟩
    ihave H := hsplit $$ Hub
    icases H with ⟨Ha, Hrest⟩
    imodintro
    iframe
    isplitr; · unfold Pipeline.prefHeld; rw [show (Finset.univ : Finset (Fin 0)) = ∅ from rfl, BI.bigSep_empty]; iempintro
    iapply (owesAt_zero (pdats m p c) 0 ((pdats_plain m p c).2.1 0) ((pdats_plain m p c).2.2 0)).mpr; iexact HO
  hin c := by
    refine BIBase.Entails.trans ?_ (hin c)
    unfold Pipeline.ΦA
    iintro ⟨Hp, -, Hr⟩
    iframe
  hout c := by
    rw [Pipeline.ownSems0_none]
    refine BIBase.Entails.trans (hout c) ?_
    unfold Pipeline.ΦA
    iintro ⟨Hr, Hp⟩
    iframe
    iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).1)
      (atTc W c) (atTc W' c) ((pdats m p c).arrAt · (cfgs p).N)
      (fun w => if h : w = o then h ▸ (hself c).symm else
        ((pdats m p c).arrAt_in w (hio w h) _).trans ((hA c w).trans (hof c _ fun e => h (lf.win.arr_inj e)).symm))
      fun b hb => hof c b fun e => hb (Finset.mem_image.mpr ⟨o, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_zero (pdats m p c) _ ((pdats_plain m p c).2.1 _) ((pdats_plain m p c).2.2 _)).mp; iexact HO

end Cert.KernelIdeal.Hand

end
-- ==== Proof.KI.Frame0.lean ====
import proofs.«110469_j83107617177903_1_alg».proof.Proof.KI.Data0
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b))

local notation "𝕄" => MT nD τ sig Unit (Elt F) ℕ (UR sig nD τ) ℕ

private theorem hz2 : (![0, 0] : Fin 2 → ℕ) = fun _ => 0 := by funext a; fin_cases a <;> rfl

-- On whole buffers the loads read the inputs' contents and the one store covers the output, so it reads back `k0_pay1 x0 x1`; whatever else is held is untouched.
theorem sound_kernel0 (c : Dev nD) (E : Set ℕ) (i : grid0.Coords)
    (arg1 : Memref sig .tc .vmem S2000x256 .f32) (harg1 : arg1.IsWhole)
    (arg2 : Memref sig .tc .vmem S256x256 .f32) (harg2 : arg2.IsWhole)
    (arg3 : Memref sig .tc .vmem S2000x256 .bf16) (harg3 : arg3.IsWhole)
    {D0 D1 D2 : Type} {g0 : D0 → Vec F S2000x256 .f32} {g1 : D1 → Vec F S256x256 .f32} {g2 : D2 → Vec F S2000x256 .bf16}
    {x0 : Vec F S2000x256 .f32} {x1 : Vec F S256x256 .f32} (h0 : ∀ d, g0 d = x0) (h1 : ∀ d, g1 d = x1) (R R' : sProp 𝕄) :
    iprop(R ∗ R' ∗ (∃ d, owns (c : Thread nD τ) arg1 fullShare (g0 d)) ∗ (∃ d, owns (c : Thread nD τ) arg2 fullShare (g1 d))
        ∗ (∃ d, owns (c : Thread nD τ) arg3 fullShare (g2 d)))
      ⊢ wp frame (wpE (defs₀ (F := F)) Variants.none c none) E (cc0__matmul_kernel i arg1 harg1 arg2 harg2 arg3 harg3)
          (fun _ => iprop(R ∗ R' ∗ owns (c : Thread nD τ) arg1 fullShare x0 ∗ owns (c : Thread nD τ) arg2 fullShare x1
            ∗ owns (c : Thread nD τ) arg3 fullShare (k0_pay1 x0 x1))) := by
  simp only [cc0__matmul_kernel_eq_skeleton, h0, h1]; unfold cc0__matmul_kernel_skel owns
  iintro ⟨HR, HR', ⟨%_, %f0, %hf0, H0⟩, ⟨%_, %f1, %hf1, H1⟩, ⟨%_, %f2, -, H2⟩⟩
  subst hf0 hf1
  sl_exec
  sl_step
  iframe
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ fun y => ⟨_, List.mem_singleton_self _, View.mem_set_unit_zero hz2 inb_S2000x256_S2000x256_0_0 y⟩,
    View.canon_unit_zero hz2, View.readAt_eq_ld, View.readAt_eq_ld, View.ld_unit_zero hz2, View.ld_unit_zero hz2]

-- At every point each input window holds the point's block of its array.
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

-- At every point the inputs' buffers hold their blocks, so the body's triple applies at them, the invariant and `owes` untouched.
theorem body_obligation0 (c : Dev nD) : BodyObligation (dat0 (F := F) V c) (defs₀ (F := F)) Variants.none () Set.univ := fun t => by
  rw [bigSep_W0, bigSep_W0]
  exact sound_kernel0 c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (before0_0 V c t) (before0_1 V c t) _ _

end Cert.KernelIdeal.Hand

end
-- ==== Proof.KI.Seg0.lean ====
import proofs.«110469_j83107617177903_1_alg».proof.Proof.KI.SegLib
import proofs.«110469_j83107617177903_1_alg».proof.Proof.KI.Frame0

noncomputable section

namespace Cert.KernelIdeal.Hand

open Cert.KernelIdeal Cert.KernelIdeal.Gen
open Idealize.ShloMosaic

variable {F : FTy → Type} [FloatOps F] (m : (ℓ : Loc nD τ sig) → Buf (Elt F) ℓ)

-- Region 0 as a segment of @main from the contents `W9` to `W10`, which differ at window 2's array only.
def reg0 : Pipeline.RegionSeg (pcfgs (F := F)) adm (pdats m) () defs₀ Variants.none L lv 0 :=
  mkReg m launch0 (W9 m) (W10 m) (2 : Fin cfg0.W) (upd10_self m) (upd10_of m) (by decide)
    (fun _ _ => rfl) (body_obligation0 _) (fun _ => .rfl) fun _ => .rfl

end Cert.KernelIdeal.Hand

end
-- ==== Proof.KI.Frame1Run.lean ====
import proofs.«110469_j83107617177903_1_alg».proof.Proof.Gen.KernelIdeal.Skeleton
import proofs.«110469_j83107617177903_1_alg».proof.Proof.LibBlock
import Idealize.ShloMosaic.Lib.Tactic

noncomputable section

namespace Cert.KernelIdeal.Hand

open Cert.KernelIdeal Cert.KernelIdeal.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The reduction coordinate is 0: the sum starts again from zeros here.
abbrev reset1 (i : grid1.Coords) : Prop :=
  Scalar.cmpi .ne (Scalar.extui (Scalar.cmpi .eq (BitVec.ofNat 32 (i 1).val) 0#32)) 0#32 = 1#1

-- The reduction coordinate is 24: the sum is complete here and goes to the output block.
abbrev emit1 (i : grid1.Coords) : Prop := k1_cond2 i = 1#1

variable (c : Dev nD) (i : grid1.Coords)
  (arg2 : Memref sig .tc .vmem S2000x256 .bf16) (harg2 : arg2.IsWhole) (arg3 : Memref sig .tc .vmem S1024x1 .i32) (harg3 : arg3.IsWhole)
  (arg4 : Memref sig .tc .vmem S1024x1 .f32) (harg4 : arg4.IsWhole) (arg5 : Memref sig .tc .vmem S1024x256 .bf16) (harg5 : arg5.IsWhole)
  (arg6 : Memref sig .tc .vmem S1024x256 .f32) (harg6 : arg6.IsWhole)
  (x0 : Vec F S2000x256 .bf16) (x1 : Vec F S1024x1 .i32) (x2 : Vec F S1024x1 .f32) (x3 : Vec F S1024x256 .bf16) (xs : Vec F S1024x256 .f32)

-- The body's five buffers, each owned whole at named contents.
def run1_held : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare xs)

set_option maxHeartbeats 500000 in
-- The body adds this point's product to the sum (to zeros where it starts again); where the sum is complete the output block gets it times the weights.
theorem run1_body (E : Set ℕ) (K : PUnit → sProp 𝕄) :
    iprop(run1_held c arg2 arg3 arg4 arg5 arg6 x0 x1 x2 x3 xs
        ∗ (run1_held c arg2 arg3 arg4 arg5 arg6 x0 x1 x2
            (if emit1 i then k1_pay3 x2 (k1_pay2 i x1 x0 (if reset1 i then k1_pay1 else xs)) else x3)
            (k1_pay2 i x1 x0 (if reset1 i then k1_pay1 else xs)) -∗ K ⟨⟩))
      ⊢ wp frame (wpE (defs₀ (F := F)) Variants.none c none) E
          (cc1__gather_kernel i arg2 harg2 arg3 harg3 arg4 harg4 arg5 harg5 arg6 harg6) K := by
  have hp {a a' : Vec F S1024x256 .f32} (h : a = a') :=
    congr (congr (congrArg (k1_pay2 i) (load_whole inb_S1024x1_S1024x1_0_0 harg3 x1)) (load_whole inb_S2000x256_S2000x256_0_0 harg2 x0)) h
  simp only [cc1__gather_kernel_eq_skeleton]; unfold cc1__gather_kernel_skel run1_held owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  by_cases hc0 : reset1 i <;> by_cases hc1 : emit1 i <;>
  · sl_exec
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; sl_unfold_run_names
      first
      | rw [if_neg hc1]; exact harg5.read_unread _
      | rw [if_pos hc1]
        exact (store_whole _ _ _ _ _).trans (congr (congrArg k1_pay3 (load_whole _ harg4 x2)) ((reload_whole _ _ _ _).trans
          (hp (by first | (rw [if_neg hc0]; exact load_whole _ harg6 xs) | (rw [if_pos hc0]; exact reload_whole _ _ _ _)))))
    iexists _; isplitr; swap; · iexact HS
    ipureintro; sl_unfold_run_names
    exact (store_whole _ _ _ _ _).trans
      (hp (by first | (rw [if_neg hc0]; exact load_whole _ harg6 xs) | (rw [if_pos hc0]; exact reload_whole _ _ _ _)))

end Cert.KernelIdeal.Hand

end
-- ==== Proof.KI.Frame1.lean ====
import proofs.«110469_j83107617177903_1_alg».proof.Proof.KI.Data1
import proofs.«110469_j83107617177903_1_alg».proof.Proof.KI.Frame1Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Point `t`'s edge block is `t / 25`,
theorem coord1_0 (t : Fin cfg1.N) : ((grid1.coords t) 0).val = t.val / 25 := by
  have hN : t.val < 20775 := lt_of_lt_of_eq t.isLt N_1
  show t.val / grid1.stride 0 % 831 = t.val / 25
  rw [show grid1.stride 0 = 25 by decide]; omega

-- its node block `t % 25`.
theorem coord1_1 (t : Fin cfg1.N) : ((grid1.coords t) 1).val = t.val % 25 := by
  show t.val / grid1.stride 1 % 25 = t.val % 25
  rw [show grid1.stride 1 = 1 by decide, Nat.div_one]

-- On a coordinate below 25 the first condition's word is set at 0 only, the second's at 24 only.
theorem words1 : ∀ n : Fin 25,
    ((Scalar.cmpi .ne (Scalar.extui (Scalar.cmpi .eq (BitVec.ofNat 32 n.val) 0#32)) 0#32 = 1#1) ↔ n.val = 0)
    ∧ ((Scalar.cmpi .ne (Scalar.extui (Scalar.cmpi .eq (BitVec.ofNat 32 n.val) 24#32)) 0#32 = 1#1) ↔ n.val = 24) := by
  decide

-- So the sum starts again at the points ≡ 0 (mod 25) and is complete at the points ≡ 24.
theorem words1_iff (t : Fin cfg1.N) :
    (reset1 (grid1.coords t) ↔ t.val % 25 = 0) ∧ (emit1 (grid1.coords t) ↔ t.val % 25 = 24) := by
  rw [← coord1_1 t]; exact words1 (grid1.coords t 1)

theorem idleAt1_3 (i : grid1.Coords) (h : ¬emit1 i) : cfg1.idle 3 i = true := by
  show (!(k1_cond2 i == 1#1)) = true
  rw [Bool.not_eq_true', beq_eq_false_iff_ne]; exact h

theorem liveAt1_3 (i : grid1.Coords) (h : emit1 i) : cfg1.idle 3 i = false := by
  show (!(k1_cond2 i == 1#1)) = false
  rw [Bool.not_eq_false', beq_iff_eq]; exact h

theorem index1_3 (t : Fin cfg1.N) : (cfg1.win 3).index t = ![t.val / 25, 0] := by
  have hN : t.val < 20775 := lt_of_lt_of_eq t.isLt N_1
  show cc1_transform_3 (grid1.coords t) = _
  unfold cc1_transform_3
  dsimp only
  rw [coord1_0, BitVec.toNat_ofNat, Nat.mod_eq_of_lt (by omega)]
  rfl

-- Where the sum is not complete, the next point exists and has the same edge block.
theorem noFlush1_3 (t : Fin cfg1.N) (h : ¬emit1 (grid1.coords t)) : (cfg1.win 3).flush t = false := by
  have h24 : t.val % 25 ≠ 24 := mt (words1_iff t).2.mpr h
  have hN : t.val < 20775 := lt_of_lt_of_eq t.isLt N_1
  have hnl : ¬(t.val + 1 = grid1.N) := by rw [N_1]; omega
  have hix : ¬∃ h' : t.val + 1 < grid1.N, (cfg1.win 3).index ⟨t.val + 1, h'⟩ ≠ (cfg1.win 3).index t := by
    rintro ⟨h', hne⟩
    apply hne
    rw [index1_3, index1_3]
    show ![(t.val + 1) / 25, 0] = ![t.val / 25, 0]
    rw [show (t.val + 1) / 25 = t.val / 25 by omega]
  unfold Window.flush
  rw [decide_eq_false hnl, decide_eq_false hix]
  rfl

-- The body leaves every input block in place.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

-- The output block is the sum times the weights where the sum is complete, and untouched elsewhere.
theorem leaves1_3 (c : Dev nD) (t : Fin cfg1.N) (d) :
    owns (c : Thread nD τ) ((cfg1.win 3).stage (cfg1.slots t 3)) fullShare
        (if emit1 (grid1.coords t) then k1_pay3 (iblk1 V c 2 t) (acc1 V c t.val t.isLt) else (dat1 V c).before 3 t d)
      ⊢ (dat1 V c).leavesExact 3 t := by
  by_cases h : emit1 (grid1.coords t)
  · rw [if_pos h]; exact Entails.of_eq (by unfold Dat.leavesExact; rw [liveAt1_3 _ h, after1_3])
  · rw [if_neg h, Dat.leavesExact_idle (dat1 V c) 3 t (idleAt1_3 _ h) (noFlush1_3 t h)]
    iintro H; iexists d; iexact H

-- The new sum at a point: this point's product over zeros where the sum starts again, over the sum before elsewhere.
theorem acc1_eq (c : Dev nD) (t : Fin cfg1.N) (ds)
    (hds : ∀ hn : t.val ≠ 0, ds = acc1 V c (t.val - 1) (Nat.lt_of_le_of_lt (Nat.sub_le _ _) t.isLt)) :
    acc1 V c t.val t.isLt = k1_pay2 (grid1.coords t) (iblk1 V c 1 t) (iblk1 V c 0 t)
      (if reset1 (grid1.coords t) then k1_pay1 else ds) := by
  by_cases h0 : t.val % 25 = 0
  · rw [if_pos ((words1_iff t).1.mpr h0), acc1_start V c t h0]
  · rw [if_neg (mt (words1_iff t).1.mp h0), acc1_step V c t h0, hds fun e => h0 (by rw [e])]

theorem PhiA1_eq (c : Dev nD) :
    (Pipeline.ΦA spec1 c : sProp 𝕄)
      = iprop(iprop((∃ d, owns (c : Thread nD τ) scM1 fullShare d) ∗ Phi1_rest c) ∗ (∃ r, prngReg c r)) := by
  unfold Pipeline.ΦA; rw [scopedRest1_split]; simp only [scM1, owns_whole]; rfl

set_option maxHeartbeats 400000 in
-- At every point the one body triple applies, and its if-then-else is the running sum.
theorem body_obligation1 (c : Dev nD) : BodyObligation (dat1 (F := F) V c) (defs₀ (F := F)) Variants.none () Set.univ := fun t => by
  rw [bigSep_W1, bigSep_W1]
  simp only [before1_0, before1_1, before1_2]
  rw [show (dat1 V c).owesAt () t.succ = (dat1 V c).owesAt () t.castSucc from rfl,
    show (dat1 V c).Φ t.succ = Phi1 V c (t.val + 1) t.isLt from rfl,
    show (dat1 V c).Φ t.castSucc = Phi1 V c t.val (Nat.le_of_lt t.isLt) from rfl]
  unfold Phi1
  iintro ⟨⟨⟨⟨%ds, %hds, HS⟩, Hr⟩, Hg⟩, Ho, ⟨%d0, H0⟩, ⟨%d1, H1⟩, ⟨%d2, H2⟩, ⟨%d3, H3⟩⟩
  iapply (run1_body c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (Memref.isWhole_whole cc1_scratch0)
    (iblk1 V c 0 t) (iblk1 V c 1 t) (iblk1 V c 2 t) ((dat1 V c).before 3 t d3) ds Set.univ _)
  unfold run1_held
  rw [← acc1_eq V c t ds hds]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS Hr Hg]
  · isplitl [HS Hr]
    · isplitl [HS]
      · iexists _; isplitr; swap; · iexact HS
        ipureintro; exact fun _ => rfl
      iexact Hr
    iexact Hg
  isplitl [Ho]; · iexact Ho
  isplitl [H0]; · iexact H0
  isplitl [H1]; · iexact H1
  isplitl [H2]; · iexact H2
  iapply (leaves1_3 V c t d3); iexact H3

theorem hin1 (c : Dev nD) : Pipeline.ΦA spec1 c ⊢ (dat1 V c).Φ 0 := by
  rw [PhiA1_eq]
  refine sep_mono_left (sep_mono_left ?_)
  iintro ⟨%d, H⟩; iexists d; isplitr; · ipureintro; exact fun h => absurd rfl h
  iexact H

theorem hout1 (c : Dev nD) : (dat1 V c).Φ (Fin.last cfg1.N) ⊢ Pipeline.ΦA spec1 c := by
  rw [PhiA1_eq]
  refine sep_mono_left (sep_mono_left ?_)
  iintro ⟨%d, -, H⟩; iexists d; iexact H

end Cert.KernelIdeal.Hand

end
-- ==== Proof.KI.Seg1.lean ====
import proofs.«110469_j83107617177903_1_alg».proof.Proof.KI.SegLib
import proofs.«110469_j83107617177903_1_alg».proof.Proof.KI.Frame1

noncomputable section

namespace Cert.KernelIdeal.Hand

open Cert.KernelIdeal Cert.KernelIdeal.Gen
open Idealize.ShloMosaic

variable {F : FTy → Type} [FloatOps F] (m : (ℓ : Loc nD τ sig) → Buf (Elt F) ℓ)

-- Region 1 as a segment of @main from the contents `W10` to `W11`, which differ at window 3's array only.
def reg1 : Pipeline.RegionSeg (pcfgs (F := F)) adm (pdats m) () defs₀ Variants.none L lv 1 :=
  mkReg m launch1 (W10 m) (W11 m) (3 : Fin cfg1.W) (upd11_self m) (upd11_of m) (by decide)
    (fun _ _ => rfl) (body_obligation1 _) (hin1 _) (hout1 _)

end Cert.KernelIdeal.Hand

end
-- ==== Proof.KI.Frame2Run.lean ====
import proofs.«110469_j83107617177903_1_alg».proof.Proof.Gen.KernelIdeal.Skeleton
import proofs.«110469_j83107617177903_1_alg».proof.Proof.LibBlock
import Idealize.ShloMosaic.Lib.Tactic

noncomputable section

namespace Cert.KernelIdeal.Hand

open Cert.KernelIdeal Cert.KernelIdeal.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- A branch tests an equality of two words, widened and compared with zero: for numbers below 2^32 it is set exactly when they are equal.
theorem word_test_iff {n k : ℕ} (hn : n < 4294967296) (hk : k < 4294967296) :
    Scalar.cmpi .ne (Scalar.extui (Scalar.cmpi .eq (BitVec.ofNat 32 n) (BitVec.ofNat 32 k))) 0#32 = 1#1 ↔ n = k := by
  have e : BitVec.ofNat 32 n = BitVec.ofNat 32 k ↔ n = k := by
    rw [← BitVec.toNat_inj, BitVec.toNat_ofNat, BitVec.toNat_ofNat, Nat.mod_eq_of_lt hn, Nat.mod_eq_of_lt hk]
  refine Iff.trans ?_ (IntOp.cmpi_eq.trans e)
  rcases BitVec.eq_zero_or_eq_one (IntOp.cmpi .eq (BitVec.ofNat 32 n) (BitVec.ofNat 32 k)) with h | h <;>
    (show Scalar.cmpi .ne (Scalar.extui (IntOp.cmpi .eq (BitVec.ofNat 32 n) (BitVec.ofNat 32 k))) 0#32 = 1#1 ↔ _; rw [h]; decide)

-- The condition under which the body first zeroes the accumulator.
abbrev cond2_0 (i : grid2.Coords) : Prop :=
  (Scalar.cmpi .ne (Scalar.extui (Scalar.cmpi .eq (BitVec.ofNat 32 (i 1).val) 0#32)) 0#32) = 1#1

-- The last grid axis, of 831, runs fastest: a test of its coordinate against k is a test of the point modulo 831.
theorem hcond2_ (t : Fin grid2.N) {k : ℕ} (hk : k < 831) :
    Scalar.cmpi .ne (Scalar.extui (Scalar.cmpi .eq (BitVec.ofNat 32 ((grid2.coords t) 1).val) (BitVec.ofNat 32 k))) 0#32 = 1#1
      ↔ t.val % 831 = k := by
  rw [show ((grid2.coords t) 1).val = t.val % 831 from congrArg (· % 831) (Nat.div_one _)]
  exact word_test_iff (by omega) (by omega)

theorem hcond2_0 (t : Fin grid2.N) : cond2_0 (grid2.coords t) ↔ t.val % 831 = 0 := hcond2_ t (by omega)
theorem hcond2_1 (t : Fin grid2.N) : k2_cond2 (grid2.coords t) = 1#1 ↔ t.val % 831 = 830 := hcond2_ t (by omega)

set_option maxHeartbeats 600000 in
-- The body on whole buffers at named contents: the inputs come back unchanged, the accumulator gains this point's product (over zeros where the first test holds), and where the second test holds the output receives the emitted value of the new accumulator. The two tests never hold together.
theorem run2_pt (c : Dev nD) (i : grid2.Coords)
    (arg2 : Memref sig .tc .vmem S1024x256 .bf16) (harg2 : arg2.IsWhole) (arg3 : Memref sig .tc .vmem S1024x1 .i32) (harg3 : arg3.IsWhole)
    (arg4 : Memref sig .tc .vmem S1x256 .f32) (harg4 : arg4.IsWhole) (arg5 : Memref sig .tc .vmem S2000x256 .f32) (harg5 : arg5.IsWhole)
    (arg6 : Memref sig .tc .vmem S2000x256 .f32) (harg6 : arg6.IsWhole)
    (x0 : Vec F S1024x256 .bf16) (x1 : Vec F S1024x1 .i32) (x2 : Vec F S1x256 .f32) (x3 xs a : Vec F S2000x256 .f32)
    (ha : k2_pay2 i x1 x0 (if cond2_0 i then k2_pay1 else xs) = a) (E : Set ℕ) (K : PUnit → sProp 𝕄) :
    iprop(owns c arg2 fullShare x0 ∗ owns c arg3 fullShare x1 ∗ owns c arg4 fullShare x2
        ∗ owns c arg5 fullShare x3 ∗ owns c arg6 fullShare xs
        ∗ (iprop(owns c arg2 fullShare x0 ∗ owns c arg3 fullShare x1 ∗ owns c arg4 fullShare x2
            ∗ owns c arg5 fullShare (if k2_cond2 i = 1#1 then k2_pay3 a x2 else x3)
            ∗ owns c arg6 fullShare a) -∗ K ⟨⟩))
      ⊢ wp frame (wpE (defs₀ (F := F)) Variants.none c none) E (cc2__scatter_kernel i arg2 harg2 arg3 harg3 arg4 harg4 arg5 harg5 arg6 harg6) K := by
  subst ha
  by_cases hc0 : cond2_0 i <;> by_cases hc1 : k2_cond2 i = 1#1
  · have h : (i 1).val < 831 := (i 1).isLt
    have := (word_test_iff (by omega) (by omega)).mp hc0
    have := (word_test_iff (by omega) (by omega)).mp hc1
    omega
  all_goals
    first | rw [if_pos hc0] | rw [if_neg hc0]
    first | rw [if_pos hc1] | rw [if_neg hc1]
    simp only [cc2__scatter_kernel_eq_skeleton]; unfold cc2__scatter_kernel_skel owns
    iintro ⟨⟨%f0, %hf0, H0⟩, ⟨%f1, %hf1, H1⟩, ⟨%f2, %hf2, H2⟩, ⟨%f3, %hf3, H3⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf6
    sl_exec (disch := first | exact hc0 | exact hc1)
    sl_step
    iapply Hk
    isplitl [H0] <;> (try isplitl [H1]) <;> (try isplitl [H2]) <;> (try isplitl [H3]) <;>
      (iexists _; isplitr; swap; iassumption; ipureintro; try sl_unfold_run_names) <;>
      simp only [store_whole (S := S2000x256), reload_whole (S := S2000x256), load_whole (S := S1024x256), load_whole (S := S1024x1),
        load_whole (S := S1x256), load_whole (S := S2000x256), Memref.IsWhole.read_unread]

end Cert.KernelIdeal.Hand

end
-- ==== Proof.KI.Frame2.lean ====
import proofs.«110469_j83107617177903_1_alg».proof.Proof.KI.Data2
import proofs.«110469_j83107617177903_1_alg».proof.Proof.KI.Frame2Run

noncomputable section

namespace Cert.KernelIdeal.Hand

open Cert.KernelIdeal Cert.KernelIdeal.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- A point that is not 830 modulo 831 is not the last of the grid and shares its quotient by 831 with the next.
theorem noFlush2_3 (t : Fin cfg2.N) (h : ¬t.val % 831 = 830) : (cfg2.win 3).flush t = false := by
  refine Bool.and_eq_false_iff.mpr (.inr (Bool.or_eq_false_iff.mpr
    ⟨decide_eq_false fun e => by have := e.trans N_2; omega,
      decide_eq_false fun ⟨h', hne⟩ => hne (hreads2_3 _ _ fun a ha => ?_)⟩))
  fin_cases a
  · exact Fin.ext (show (t.val + 1) / grid2.stride 0 % 25 = t.val / grid2.stride 0 % 25 by
      rw [show grid2.stride 0 = 831 from by decide]; omega)
  · exact absurd ha (by decide)

-- Before the body each input's buffer holds that input's block of the point.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

-- The class's invariant is the region's with the scratch accumulator at anything.
theorem PhiA2_eq (c : Dev nD) : (Pipeline.ΦA spec2 c : sProp 𝕄) = Phi2 c iprop(∃ d, owns c scM2 fullShare d) := by
  unfold Pipeline.ΦA; rw [scopedRest2_split]; simp only [scM2, owns_whole]; try rfl

theorem hin2 (c : Dev nD) : Pipeline.ΦA spec2 c ⊢ (dat2 V c).Φ 0 := by
  rw [PhiA2_eq]; refine sep_mono_left (sep_mono_left ?_)
  iintro ⟨%d, H⟩; iexists d; isplitr; · ipureintro; exact fun k _ e => absurd e.symm (Nat.succ_ne_zero k)
  iexact H

theorem hout2 (c : Dev nD) : (dat2 V c).Φ (Fin.last cfg2.N) ⊢ Pipeline.ΦA spec2 c := by
  rw [PhiA2_eq]; refine sep_mono_left (sep_mono_left ?_)
  iintro ⟨%d, -, H⟩; iexists d; iexact H

-- The accumulator's equation at point `t`, from what the invariant says the buffer held.
theorem acc2_next (c : Dev nD) (t : Fin cfg2.N) (d) (hd : ∀ k hk, t.val = k + 1 → d = acc2 V c k hk) :
    k2_pay2 (grid2.coords t) (iblk2 V c 1 t) (iblk2 V c 0 t) (if cond2_0 (grid2.coords t) then k2_pay1 else d)
      = acc2 V c t.val t.isLt := by
  by_cases h0 : t.val % 831 = 0
  · rw [acc2_start V c t h0, if_pos ((hcond2_0 t).mpr h0)]
  · rw [acc2_step V c t h0, if_neg (mt (hcond2_0 t).mp h0)]; congr 1; exact hd _ _ (by omega)

abbrev ms2_ (t : Fin cfg2.N) (w : Fin cfg2.W) := (cfg2.win w).stage (cfg2.slots t w)

-- The kernel body at point `t`, on what it is called with.
abbrev body2 (t : Fin cfg2.N) : Prog (TpuEff nD τ sig (Elt F) Λ₀ .tc) PUnit :=
  cc2__scatter_kernel (grid2.coords t) (ms2_ t 0) (hstage2_0 ((cfg2.slots t 0).cast nbuf2_0)) (ms2_ t 1) (hstage2_1 ((cfg2.slots t 1).cast nbuf2_1))
    (ms2_ t 2) (hstage2_2 ((cfg2.slots t 2).cast nbuf2_2)) (ms2_ t 3) (hstage2_3 ((cfg2.slots t 3).cast nbuf2_3)) scM2 (Memref.isWhole_whole _)

-- The output's buffer, at the emitted value where the body emits and as found elsewhere, is as the proof data ask.
theorem body2_out (c : Dev nD) (t : Fin cfg2.N) (d) :
    owns c (ms2_ t 3) fullShare
        (if k2_cond2 (grid2.coords t) = 1#1 then k2_pay3 (acc2 V c t.val t.isLt) (iblk2 V c 2 t) else (dat2 V c).before 3 t d)
      ⊢ (dat2 V c).leavesExact 3 t := by
  by_cases h : k2_cond2 (grid2.coords t) = 1#1
  · rw [if_pos h, show (dat2 V c).leavesExact 3 t = owns c (ms2_ t 3) fullShare ((dat2 V c).after 3 t) from by
      unfold Dat.leavesExact; rw [show cfg2.idle 3 (grid2.coords t) = false from congrArg (fun b => !(b == 1#1)) h]]
    exact .rfl
  · rw [if_neg h, Dat.leavesExact_idle (dat2 V c) 3 t (by
      show (!(k2_cond2 (grid2.coords t) == 1#1)) = true; rw [Bool.not_eq_true', beq_eq_false_iff_ne]; exact h)
      (noFlush2_3 t (mt (hcond2_1 t).mpr h))]
    iintro H; iexists d; iexact H

-- The body at any point: the inputs' buffers hold their blocks; the invariant hands over the accumulator and takes it back at this point's contents.
theorem sound_body2 (c : Dev nD) (t : Fin cfg2.N) :
    iprop(Phi2 c (acc2_at V c t.val) ∗ (dat2 V c).owesAt () t.castSucc
        ∗ (∃ d, owns c (ms2_ t 0) fullShare ((dat2 V c).before 0 t d))
        ∗ (∃ d, owns c (ms2_ t 1) fullShare ((dat2 V c).before 1 t d))
        ∗ (∃ d, owns c (ms2_ t 2) fullShare ((dat2 V c).before 2 t d))
        ∗ (∃ d, owns c (ms2_ t 3) fullShare ((dat2 V c).before 3 t d)))
      ⊢ wp frame (wpE (defs₀ (F := F)) Variants.none c none) Set.univ (body2 t) fun _ =>
        iprop(Phi2 c (acc2_at V c (t.val + 1)) ∗ (dat2 V c).owesAt () t.castSucc
          ∗ owns c (ms2_ t 0) fullShare (iblk2 V c 0 t) ∗ owns c (ms2_ t 1) fullShare (iblk2 V c 1 t)
          ∗ owns c (ms2_ t 2) fullShare (iblk2 V c 2 t) ∗ (dat2 V c).leavesExact 3 t) := by
  simp only [before2_0, before2_1, before2_2]
  unfold Phi2 acc2_at
  iintro ⟨⟨⟨⟨%d, %hd, HS⟩, HR⟩, Hg⟩, Ho, ⟨%d0, H0⟩, ⟨%d1, H1⟩, ⟨%d2, H2⟩, ⟨%d3, H3⟩⟩
  iapply (run2_pt c _ _ _ _ _ _ _ _ _ _ _ _ _ (iblk2 V c 2 t) ((dat2 V c).before 3 t d3) _ _ (acc2_next V c t d hd) Set.univ _)
  iframe H0 H1 H2 H3 HS
  iintro ⟨H0, H1, H2, H3, HS⟩
  iframe H0 H1 H2 HR Hg Ho
  isplitl [HS]
  · iexists _; isplitr; swap; iexact HS
    ipureintro; intro k hk e; cases e; rfl
  · iapply (body2_out V c t d3); iexact H3

-- The body obligation, at every point.
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Seg2.lean ====
import proofs.«110469_j83107617177903_1_alg».proof.Proof.KI.SegLib
import proofs.«110469_j83107617177903_1_alg».proof.Proof.KI.Frame2

noncomputable section

namespace Cert.KernelIdeal.Hand

open Cert.KernelIdeal Cert.KernelIdeal.Gen
open Idealize.ShloMosaic

variable {F : FTy → Type} [FloatOps F] (m : (ℓ : Loc nD τ sig) → Buf (Elt F) ℓ)

-- Region 2 as a segment of @main from the contents `W12` to `W13`, which differ at window 3's array only.
def reg2 : Pipeline.RegionSeg (pcfgs (F := F)) adm (pdats m) () defs₀ Variants.none L lv 2 :=
  mkReg m launch2 (W12 m) (W13 m) (3 : Fin cfg2.W) (upd13_self m) (upd13_of m) (by decide)
    (fun _ _ => rfl) (body_obligation2 _) (hin2 _) (hout2 _)

end Cert.KernelIdeal.Hand

end
-- ==== Proof.KI.Frame3.lean ====
import proofs.«110469_j83107617177903_1_alg».proof.Proof.KI.Data3
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b))

local notation "𝕄" => MT nD τ sig Unit (Elt F) ℕ (UR sig nD τ) ℕ

private theorem hz2 : (![0, 0] : Fin 2 → ℕ) = fun _ => 0 := by funext a; fin_cases a <;> rfl

-- On whole buffers the loads read the inputs' contents and the one store covers the output, so it reads back `k3_pay1 x0 x1`; whatever else is held is untouched.
theorem sound_kernel3 (c : Dev nD) (E : Set ℕ) (i : grid3.Coords)
    (arg1 : Memref sig .tc .vmem S2000x256 .f32) (harg1 : arg1.IsWhole)
    (arg2 : Memref sig .tc .vmem S256x128 .f32) (harg2 : arg2.IsWhole)
    (arg3 : Memref sig .tc .vmem S2000x128 .bf16) (harg3 : arg3.IsWhole)
    {D0 D1 D2 : Type} {g0 : D0 → Vec F S2000x256 .f32} {g1 : D1 → Vec F S256x128 .f32} {g2 : D2 → Vec F S2000x128 .bf16}
    {x0 : Vec F S2000x256 .f32} {x1 : Vec F S256x128 .f32} (h0 : ∀ d, g0 d = x0) (h1 : ∀ d, g1 d = x1) (R R' : sProp 𝕄) :
    iprop(R ∗ R' ∗ (∃ d, owns (c : Thread nD τ) arg1 fullShare (g0 d)) ∗ (∃ d, owns (c : Thread nD τ) arg2 fullShare (g1 d))
        ∗ (∃ d, owns (c : Thread nD τ) arg3 fullShare (g2 d)))
      ⊢ wp frame (wpE (defs₀ (F := F)) Variants.none c none) E (cc3__matmul_kernel i arg1 harg1 arg2 harg2 arg3 harg3)
          (fun _ => iprop(R ∗ R' ∗ owns (c : Thread nD τ) arg1 fullShare x0 ∗ owns (c : Thread nD τ) arg2 fullShare x1
            ∗ owns (c : Thread nD τ) arg3 fullShare (k3_pay1 x0 x1))) := by
  simp only [cc3__matmul_kernel_eq_skeleton, h0, h1]; unfold cc3__matmul_kernel_skel owns
  iintro ⟨HR, HR', ⟨%_, %f0, %hf0, H0⟩, ⟨%_, %f1, %hf1, H1⟩, ⟨%_, %f2, -, H2⟩⟩
  subst hf0 hf1
  sl_exec
  sl_step
  iframe
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ fun y => ⟨_, List.mem_singleton_self _, View.mem_set_unit_zero hz2 inb_S2000x128_S2000x128_0_0 y⟩,
    View.canon_unit_zero hz2, View.readAt_eq_ld, View.readAt_eq_ld, View.ld_unit_zero hz2, View.ld_unit_zero hz2]

-- At every point each input window holds the point's block of its array.
theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

-- At every point the inputs' buffers hold their blocks, so the body's triple applies at them, the invariant and `owes` untouched.
theorem body_obligation3 (c : Dev nD) : BodyObligation (dat3 (F := F) V c) (defs₀ (F := F)) Variants.none () Set.univ := fun t => by
  rw [bigSep_W3, bigSep_W3]
  exact sound_kernel3 c Set.univ (grid3.coords t) (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2)) (before3_0 V c t) (before3_1 V c t) _ _

end Cert.KernelIdeal.Hand

end
-- ==== Proof.KI.Seg3.lean ====
import proofs.«110469_j83107617177903_1_alg».proof.Proof.KI.SegLib
import proofs.«110469_j83107617177903_1_alg».proof.Proof.KI.Frame3

noncomputable section

namespace Cert.KernelIdeal.Hand

open Cert.KernelIdeal Cert.KernelIdeal.Gen
open Idealize.ShloMosaic

variable {F : FTy → Type} [FloatOps F] (m : (ℓ : Loc nD τ sig) → Buf (Elt F) ℓ)

-- Region 3 as a segment of @main from the contents `W13` to `W14`, which differ at window 2's array only.
def reg3 : Pipeline.RegionSeg (pcfgs (F := F)) adm (pdats m) () defs₀ Variants.none L lv 3 :=
  mkReg m launch3 (W13 m) (W14 m) (2 : Fin cfg3.W) (upd14_self m) (upd14_of m) (by decide)
    (fun _ _ => rfl) (body_obligation3 _) (fun _ => .rfl) fun _ => .rfl

end Cert.KernelIdeal.Hand

end
-- ==== Proof.KI.Frame4Run.lean ====
import proofs.«110469_j83107617177903_1_alg».proof.Proof.Gen.KernelIdeal.Skeleton
import proofs.«110469_j83107617177903_1_alg».proof.Proof.LibBlock
import Idealize.ShloMosaic.Lib.Tactic

noncomputable section

namespace Cert.KernelIdeal.Hand

open Cert.KernelIdeal Cert.KernelIdeal.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The reduction coordinate is 0: the sum starts again from zeros here.
abbrev reset4 (i : grid4.Coords) : Prop :=
  Scalar.cmpi .ne (Scalar.extui (Scalar.cmpi .eq (BitVec.ofNat 32 (i 1).val) 0#32)) 0#32 = 1#1

-- The reduction coordinate is 24: the sum is complete here and goes to the output block.
abbrev emit4 (i : grid4.Coords) : Prop := k4_cond2 i = 1#1

variable (c : Dev nD) (i : grid4.Coords)
  (arg2 : Memref sig .tc .vmem S2000x128 .bf16) (harg2 : arg2.IsWhole) (arg3 : Memref sig .tc .vmem S1024x1 .i32) (harg3 : arg3.IsWhole)
  (arg4 : Memref sig .tc .vmem S1024x1 .f32) (harg4 : arg4.IsWhole) (arg5 : Memref sig .tc .vmem S1024x128 .bf16) (harg5 : arg5.IsWhole)
  (arg6 : Memref sig .tc .vmem S1024x128 .f32) (harg6 : arg6.IsWhole)
  (x0 : Vec F S2000x128 .bf16) (x1 : Vec F S1024x1 .i32) (x2 : Vec F S1024x1 .f32) (x3 : Vec F S1024x128 .bf16) (xs : Vec F S1024x128 .f32)

-- The body's five buffers, each owned whole at named contents.
def run4_held : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare xs)

set_option maxHeartbeats 500000 in
-- The body adds this point's product to the sum (to zeros where it starts again); where the sum is complete the output block gets it times the weights.
theorem run4_body (E : Set ℕ) (K : PUnit → sProp 𝕄) :
    iprop(run4_held c arg2 arg3 arg4 arg5 arg6 x0 x1 x2 x3 xs
        ∗ (run4_held c arg2 arg3 arg4 arg5 arg6 x0 x1 x2
            (if emit4 i then k4_pay3 x2 (k4_pay2 i x1 x0 (if reset4 i then k4_pay1 else xs)) else x3)
            (k4_pay2 i x1 x0 (if reset4 i then k4_pay1 else xs)) -∗ K ⟨⟩))
      ⊢ wp frame (wpE (defs₀ (F := F)) Variants.none c none) E
          (cc4__gather_kernel i arg2 harg2 arg3 harg3 arg4 harg4 arg5 harg5 arg6 harg6) K := by
  have hp {a a' : Vec F S1024x128 .f32} (h : a = a') :=
    congr (congr (congrArg (k4_pay2 i) (load_whole inb_S1024x1_S1024x1_0_0 harg3 x1)) (load_whole inb_S2000x128_S2000x128_0_0 harg2 x0)) h
  simp only [cc4__gather_kernel_eq_skeleton]; unfold cc4__gather_kernel_skel run4_held owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  by_cases hc0 : reset4 i <;> by_cases hc1 : emit4 i <;>
  · sl_exec
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; sl_unfold_run_names
      first
      | rw [if_neg hc1]; exact harg5.read_unread _
      | rw [if_pos hc1]
        exact (store_whole _ _ _ _ _).trans (congr (congrArg k4_pay3 (load_whole _ harg4 x2)) ((reload_whole _ _ _ _).trans
          (hp (by first | (rw [if_neg hc0]; exact load_whole _ harg6 xs) | (rw [if_pos hc0]; exact reload_whole _ _ _ _)))))
    iexists _; isplitr; swap; · iexact HS
    ipureintro; sl_unfold_run_names
    exact (store_whole _ _ _ _ _).trans
      (hp (by first | (rw [if_neg hc0]; exact load_whole _ harg6 xs) | (rw [if_pos hc0]; exact reload_whole _ _ _ _)))

end Cert.KernelIdeal.Hand

end
-- ==== Proof.KI.Frame4.lean ====
import proofs.«110469_j83107617177903_1_alg».proof.Proof.KI.Data4
import proofs.«110469_j83107617177903_1_alg».proof.Proof.KI.Frame4Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Point `t`'s edge block is `t / 25`,
theorem coord4_0 (t : Fin cfg4.N) : ((grid4.coords t) 0).val = t.val / 25 := by
  have hN : t.val < 20775 := lt_of_lt_of_eq t.isLt N_4
  show t.val / grid4.stride 0 % 831 = t.val / 25
  rw [show grid4.stride 0 = 25 by decide]; omega

-- its node block `t % 25`.
theorem coord4_1 (t : Fin cfg4.N) : ((grid4.coords t) 1).val = t.val % 25 := by
  show t.val / grid4.stride 1 % 25 = t.val % 25
  rw [show grid4.stride 1 = 1 by decide, Nat.div_one]

-- On a coordinate below 25 the first condition's word is set at 0 only, the second's at 24 only.
theorem words4 : ∀ n : Fin 25,
    ((Scalar.cmpi .ne (Scalar.extui (Scalar.cmpi .eq (BitVec.ofNat 32 n.val) 0#32)) 0#32 = 1#1) ↔ n.val = 0)
    ∧ ((Scalar.cmpi .ne (Scalar.extui (Scalar.cmpi .eq (BitVec.ofNat 32 n.val) 24#32)) 0#32 = 1#1) ↔ n.val = 24) := by
  decide

-- So the sum starts again at the points ≡ 0 (mod 25) and is complete at the points ≡ 24.
theorem words4_iff (t : Fin cfg4.N) :
    (reset4 (grid4.coords t) ↔ t.val % 25 = 0) ∧ (emit4 (grid4.coords t) ↔ t.val % 25 = 24) := by
  rw [← coord4_1 t]; exact words4 (grid4.coords t 1)

theorem idleAt4_3 (i : grid4.Coords) (h : ¬emit4 i) : cfg4.idle 3 i = true := by
  show (!(k4_cond2 i == 1#1)) = true
  rw [Bool.not_eq_true', beq_eq_false_iff_ne]; exact h

theorem liveAt4_3 (i : grid4.Coords) (h : emit4 i) : cfg4.idle 3 i = false := by
  show (!(k4_cond2 i == 1#1)) = false
  rw [Bool.not_eq_false', beq_iff_eq]; exact h

theorem index4_3 (t : Fin cfg4.N) : (cfg4.win 3).index t = ![t.val / 25, 0] := by
  have hN : t.val < 20775 := lt_of_lt_of_eq t.isLt N_4
  show cc4_transform_3 (grid4.coords t) = _
  unfold cc4_transform_3
  dsimp only
  rw [coord4_0, BitVec.toNat_ofNat, Nat.mod_eq_of_lt (by omega)]
  rfl

-- Where the sum is not complete, the next point exists and has the same edge block.
theorem noFlush4_3 (t : Fin cfg4.N) (h : ¬emit4 (grid4.coords t)) : (cfg4.win 3).flush t = false := by
  have h24 : t.val % 25 ≠ 24 := mt (words4_iff t).2.mpr h
  have hN : t.val < 20775 := lt_of_lt_of_eq t.isLt N_4
  have hnl : ¬(t.val + 1 = grid4.N) := by rw [N_4]; omega
  have hix : ¬∃ h' : t.val + 1 < grid4.N, (cfg4.win 3).index ⟨t.val + 1, h'⟩ ≠ (cfg4.win 3).index t := by
    rintro ⟨h', hne⟩
    apply hne
    rw [index4_3, index4_3]
    show ![(t.val + 1) / 25, 0] = ![t.val / 25, 0]
    rw [show (t.val + 1) / 25 = t.val / 25 by omega]
  unfold Window.flush
  rw [decide_eq_false hnl, decide_eq_false hix]
  rfl

-- The body leaves every input block in place.
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

-- The output block is the sum times the weights where the sum is complete, and untouched elsewhere.
theorem leaves4_3 (c : Dev nD) (t : Fin cfg4.N) (d) :
    owns (c : Thread nD τ) ((cfg4.win 3).stage (cfg4.slots t 3)) fullShare
        (if emit4 (grid4.coords t) then k4_pay3 (iblk4 V c 2 t) (acc4 V c t.val t.isLt) else (dat4 V c).before 3 t d)
      ⊢ (dat4 V c).leavesExact 3 t := by
  by_cases h : emit4 (grid4.coords t)
  · rw [if_pos h]; exact Entails.of_eq (by unfold Dat.leavesExact; rw [liveAt4_3 _ h, after4_3])
  · rw [if_neg h, Dat.leavesExact_idle (dat4 V c) 3 t (idleAt4_3 _ h) (noFlush4_3 t h)]
    iintro H; iexists d; iexact H

-- The new sum at a point: this point's product over zeros where the sum starts again, over the sum before elsewhere.
theorem acc4_eq (c : Dev nD) (t : Fin cfg4.N) (ds)
    (hds : ∀ hn : t.val ≠ 0, ds = acc4 V c (t.val - 1) (Nat.lt_of_le_of_lt (Nat.sub_le _ _) t.isLt)) :
    acc4 V c t.val t.isLt = k4_pay2 (grid4.coords t) (iblk4 V c 1 t) (iblk4 V c 0 t)
      (if reset4 (grid4.coords t) then k4_pay1 else ds) := by
  by_cases h0 : t.val % 25 = 0
  · rw [if_pos ((words4_iff t).1.mpr h0), acc4_start V c t h0]
  · rw [if_neg (mt (words4_iff t).1.mp h0), acc4_step V c t h0, hds fun e => h0 (by rw [e])]

theorem PhiA4_eq (c : Dev nD) :
    (Pipeline.ΦA spec4 c : sProp 𝕄)
      = iprop(iprop((∃ d, owns (c : Thread nD τ) scM4 fullShare d) ∗ Phi4_rest c) ∗ (∃ r, prngReg c r)) := by
  unfold Pipeline.ΦA; rw [scopedRest4_split]; simp only [scM4, owns_whole]; rfl

set_option maxHeartbeats 400000 in
-- At every point the one body triple applies, and its if-then-else is the running sum.
theorem body_obligation4 (c : Dev nD) : BodyObligation (dat4 (F := F) V c) (defs₀ (F := F)) Variants.none () Set.univ := fun t => by
  rw [bigSep_W4, bigSep_W4]
  simp only [before4_0, before4_1, before4_2]
  rw [show (dat4 V c).owesAt () t.succ = (dat4 V c).owesAt () t.castSucc from rfl,
    show (dat4 V c).Φ t.succ = Phi4 V c (t.val + 1) t.isLt from rfl,
    show (dat4 V c).Φ t.castSucc = Phi4 V c t.val (Nat.le_of_lt t.isLt) from rfl]
  unfold Phi4
  iintro ⟨⟨⟨⟨%ds, %hds, HS⟩, Hr⟩, Hg⟩, Ho, ⟨%d0, H0⟩, ⟨%d1, H1⟩, ⟨%d2, H2⟩, ⟨%d3, H3⟩⟩
  iapply (run4_body c (grid4.coords t) _ (hstage4_0 ((cfg4.slots t 0).cast nbuf4_0)) _ (hstage4_1 ((cfg4.slots t 1).cast nbuf4_1))
    _ (hstage4_2 ((cfg4.slots t 2).cast nbuf4_2)) _ (hstage4_3 ((cfg4.slots t 3).cast nbuf4_3)) _ (Memref.isWhole_whole cc4_scratch0)
    (iblk4 V c 0 t) (iblk4 V c 1 t) (iblk4 V c 2 t) ((dat4 V c).before 3 t d3) ds Set.univ _)
  unfold run4_held
  rw [← acc4_eq V c t ds hds]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS Hr Hg]
  · isplitl [HS Hr]
    · isplitl [HS]
      · iexists _; isplitr; swap; · iexact HS
        ipureintro; exact fun _ => rfl
      iexact Hr
    iexact Hg
  isplitl [Ho]; · iexact Ho
  isplitl [H0]; · iexact H0
  isplitl [H1]; · iexact H1
  isplitl [H2]; · iexact H2
  iapply (leaves4_3 V c t d3); iexact H3

theorem hin4 (c : Dev nD) : Pipeline.ΦA spec4 c ⊢ (dat4 V c).Φ 0 := by
  rw [PhiA4_eq]
  refine sep_mono_left (sep_mono_left ?_)
  iintro ⟨%d, H⟩; iexists d; isplitr; · ipureintro; exact fun h => absurd rfl h
  iexact H

theorem hout4 (c : Dev nD) : (dat4 V c).Φ (Fin.last cfg4.N) ⊢ Pipeline.ΦA spec4 c := by
  rw [PhiA4_eq]
  refine sep_mono_left (sep_mono_left ?_)
  iintro ⟨%d, -, H⟩; iexists d; iexact H

end Cert.KernelIdeal.Hand

end
-- ==== Proof.KI.Seg4.lean ====
import proofs.«110469_j83107617177903_1_alg».proof.Proof.KI.SegLib
import proofs.«110469_j83107617177903_1_alg».proof.Proof.KI.Frame4

noncomputable section

namespace Cert.KernelIdeal.Hand

open Cert.KernelIdeal Cert.KernelIdeal.Gen
open Idealize.ShloMosaic

variable {F : FTy → Type} [FloatOps F] (m : (ℓ : Loc nD τ sig) → Buf (Elt F) ℓ)

-- Region 4 as a segment of @main from the contents `W14` to `W15`, which differ at window 3's array only.
def reg4 : Pipeline.RegionSeg (pcfgs (F := F)) adm (pdats m) () defs₀ Variants.none L lv 4 :=
  mkReg m launch4 (W14 m) (W15 m) (3 : Fin cfg4.W) (upd15_self m) (upd15_of m) (by decide)
    (fun _ _ => rfl) (body_obligation4 _) (hin4 _) (hout4 _)

end Cert.KernelIdeal.Hand

end
-- ==== Proof.KI.Frame5Run.lean ====
import proofs.«110469_j83107617177903_1_alg».proof.Proof.Gen.KernelIdeal.Skeleton
import proofs.«110469_j83107617177903_1_alg».proof.Proof.LibBlock
import Idealize.ShloMosaic.Lib.Tactic

noncomputable section

namespace Cert.KernelIdeal.Hand

open Cert.KernelIdeal Cert.KernelIdeal.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- A branch tests an equality of two words, widened and compared with zero: for numbers below 2^32 it is set exactly when they are equal.
theorem word_test_iff5 {n k : ℕ} (hn : n < 4294967296) (hk : k < 4294967296) :
    Scalar.cmpi .ne (Scalar.extui (Scalar.cmpi .eq (BitVec.ofNat 32 n) (BitVec.ofNat 32 k))) 0#32 = 1#1 ↔ n = k := by
  have e : BitVec.ofNat 32 n = BitVec.ofNat 32 k ↔ n = k := by
    rw [← BitVec.toNat_inj, BitVec.toNat_ofNat, BitVec.toNat_ofNat, Nat.mod_eq_of_lt hn, Nat.mod_eq_of_lt hk]
  refine Iff.trans ?_ (IntOp.cmpi_eq.trans e)
  rcases BitVec.eq_zero_or_eq_one (IntOp.cmpi .eq (BitVec.ofNat 32 n) (BitVec.ofNat 32 k)) with h | h <;>
    (show Scalar.cmpi .ne (Scalar.extui (IntOp.cmpi .eq (BitVec.ofNat 32 n) (BitVec.ofNat 32 k))) 0#32 = 1#1 ↔ _; rw [h]; decide)

-- The condition under which the body first zeroes the accumulator.
abbrev cond5_0 (i : grid5.Coords) : Prop :=
  (Scalar.cmpi .ne (Scalar.extui (Scalar.cmpi .eq (BitVec.ofNat 32 (i 1).val) 0#32)) 0#32) = 1#1

-- The last grid axis, of 831, runs fastest: a test of its coordinate against k is a test of the point modulo 831.
theorem hcond5_ (t : Fin grid5.N) {k : ℕ} (hk : k < 831) :
    Scalar.cmpi .ne (Scalar.extui (Scalar.cmpi .eq (BitVec.ofNat 32 ((grid5.coords t) 1).val) (BitVec.ofNat 32 k))) 0#32 = 1#1
      ↔ t.val % 831 = k := by
  rw [show ((grid5.coords t) 1).val = t.val % 831 from congrArg (· % 831) (Nat.div_one _)]
  exact word_test_iff5 (by omega) (by omega)

theorem hcond5_0 (t : Fin grid5.N) : cond5_0 (grid5.coords t) ↔ t.val % 831 = 0 := hcond5_ t (by omega)
theorem hcond5_1 (t : Fin grid5.N) : k5_cond2 (grid5.coords t) = 1#1 ↔ t.val % 831 = 830 := hcond5_ t (by omega)

set_option maxHeartbeats 600000 in
-- The body on whole buffers at named contents: the inputs come back unchanged, the accumulator gains this point's product (over zeros where the first test holds), and where the second test holds the output receives the emitted value of the new accumulator. The two tests never hold together.
theorem run5_pt (c : Dev nD) (i : grid5.Coords)
    (arg2 : Memref sig .tc .vmem S1024x128 .bf16) (harg2 : arg2.IsWhole) (arg3 : Memref sig .tc .vmem S1024x1 .i32) (harg3 : arg3.IsWhole)
    (arg4 : Memref sig .tc .vmem S1x128 .f32) (harg4 : arg4.IsWhole) (arg5 : Memref sig .tc .vmem S2000x128 .f32) (harg5 : arg5.IsWhole)
    (arg6 : Memref sig .tc .vmem S2000x128 .f32) (harg6 : arg6.IsWhole)
    (x0 : Vec F S1024x128 .bf16) (x1 : Vec F S1024x1 .i32) (x2 : Vec F S1x128 .f32) (x3 xs a : Vec F S2000x128 .f32)
    (ha : k5_pay2 i x1 x0 (if cond5_0 i then k5_pay1 else xs) = a) (E : Set ℕ) (K : PUnit → sProp 𝕄) :
    iprop(owns c arg2 fullShare x0 ∗ owns c arg3 fullShare x1 ∗ owns c arg4 fullShare x2
        ∗ owns c arg5 fullShare x3 ∗ owns c arg6 fullShare xs
        ∗ (iprop(owns c arg2 fullShare x0 ∗ owns c arg3 fullShare x1 ∗ owns c arg4 fullShare x2
            ∗ owns c arg5 fullShare (if k5_cond2 i = 1#1 then k5_pay3 a x2 else x3)
            ∗ owns c arg6 fullShare a) -∗ K ⟨⟩))
      ⊢ wp frame (wpE (defs₀ (F := F)) Variants.none c none) E (cc5__scatter_kernel i arg2 harg2 arg3 harg3 arg4 harg4 arg5 harg5 arg6 harg6) K := by
  subst ha
  by_cases hc0 : cond5_0 i <;> by_cases hc1 : k5_cond2 i = 1#1
  · have h : (i 1).val < 831 := (i 1).isLt
    have := (word_test_iff5 (by omega) (by omega)).mp hc0
    have := (word_test_iff5 (by omega) (by omega)).mp hc1
    omega
  all_goals
    first | rw [if_pos hc0] | rw [if_neg hc0]
    first | rw [if_pos hc1] | rw [if_neg hc1]
    simp only [cc5__scatter_kernel_eq_skeleton]; unfold cc5__scatter_kernel_skel owns
    iintro ⟨⟨%f0, %hf0, H0⟩, ⟨%f1, %hf1, H1⟩, ⟨%f2, %hf2, H2⟩, ⟨%f3, %hf3, H3⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf6
    sl_exec (disch := first | exact hc0 | exact hc1)
    sl_step
    iapply Hk
    isplitl [H0] <;> (try isplitl [H1]) <;> (try isplitl [H2]) <;> (try isplitl [H3]) <;>
      (iexists _; isplitr; swap; iassumption; ipureintro; try sl_unfold_run_names) <;>
      simp only [store_whole (S := S2000x128), reload_whole (S := S2000x128), load_whole (S := S1024x128), load_whole (S := S1024x1),
        load_whole (S := S1x128), load_whole (S := S2000x128), Memref.IsWhole.read_unread]

end Cert.KernelIdeal.Hand

end
-- ==== Proof.KI.Frame5.lean ====
import proofs.«110469_j83107617177903_1_alg».proof.Proof.KI.Data5
import proofs.«110469_j83107617177903_1_alg».proof.Proof.KI.Frame5Run

noncomputable section

namespace Cert.KernelIdeal.Hand

open Cert.KernelIdeal Cert.KernelIdeal.Gen Cert.LibBlock
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- A point that is not 830 modulo 831 is not the last of the grid and shares its quotient by 831 with the next.
theorem noFlush5_3 (t : Fin cfg5.N) (h : ¬t.val % 831 = 830) : (cfg5.win 3).flush t = false := by
  refine Bool.and_eq_false_iff.mpr (.inr (Bool.or_eq_false_iff.mpr
    ⟨decide_eq_false fun e => by have := e.trans N_5; omega,
      decide_eq_false fun ⟨h', hne⟩ => hne (hreads5_3 _ _ fun a ha => ?_)⟩))
  fin_cases a
  · exact Fin.ext (show (t.val + 1) / grid5.stride 0 % 25 = t.val / grid5.stride 0 % 25 by
      rw [show grid5.stride 0 = 831 from by decide]; omega)
  · exact absurd ha (by decide)

-- Before the body each input's buffer holds that input's block of the point.
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

-- The class's invariant is the region's with the scratch accumulator at anything.
theorem PhiA5_eq (c : Dev nD) : (Pipeline.ΦA spec5 c : sProp 𝕄) = Phi5 c iprop(∃ d, owns c scM5 fullShare d) := by
  unfold Pipeline.ΦA; rw [scopedRest5_split]; simp only [scM5, owns_whole]; try rfl

theorem hin5 (c : Dev nD) : Pipeline.ΦA spec5 c ⊢ (dat5 V c).Φ 0 := by
  rw [PhiA5_eq]; refine sep_mono_left (sep_mono_left ?_)
  iintro ⟨%d, H⟩; iexists d; isplitr; · ipureintro; exact fun k _ e => absurd e.symm (Nat.succ_ne_zero k)
  iexact H

theorem hout5 (c : Dev nD) : (dat5 V c).Φ (Fin.last cfg5.N) ⊢ Pipeline.ΦA spec5 c := by
  rw [PhiA5_eq]; refine sep_mono_left (sep_mono_left ?_)
  iintro ⟨%d, -, H⟩; iexists d; iexact H

-- The accumulator's equation at point `t`, from what the invariant says the buffer held.
theorem acc5_next (c : Dev nD) (t : Fin cfg5.N) (d) (hd : ∀ k hk, t.val = k + 1 → d = acc5 V c k hk) :
    k5_pay2 (grid5.coords t) (iblk5 V c 1 t) (iblk5 V c 0 t) (if cond5_0 (grid5.coords t) then k5_pay1 else d)
      = acc5 V c t.val t.isLt := by
  by_cases h0 : t.val % 831 = 0
  · rw [acc5_start V c t h0, if_pos ((hcond5_0 t).mpr h0)]
  · rw [acc5_step V c t h0, if_neg (mt (hcond5_0 t).mp h0)]; congr 1; exact hd _ _ (by omega)

abbrev ms5_ (t : Fin cfg5.N) (w : Fin cfg5.W) := (cfg5.win w).stage (cfg5.slots t w)

-- The kernel body at point `t`, on what it is called with.
abbrev body5 (t : Fin cfg5.N) : Prog (TpuEff nD τ sig (Elt F) Λ₀ .tc) PUnit :=
  cc5__scatter_kernel (grid5.coords t) (ms5_ t 0) (hstage5_0 ((cfg5.slots t 0).cast nbuf5_0)) (ms5_ t 1) (hstage5_1 ((cfg5.slots t 1).cast nbuf5_1))
    (ms5_ t 2) (hstage5_2 ((cfg5.slots t 2).cast nbuf5_2)) (ms5_ t 3) (hstage5_3 ((cfg5.slots t 3).cast nbuf5_3)) scM5 (Memref.isWhole_whole _)

-- The output's buffer, at the emitted value where the body emits and as found elsewhere, is as the proof data ask.
theorem body5_out (c : Dev nD) (t : Fin cfg5.N) (d) :
    owns c (ms5_ t 3) fullShare
        (if k5_cond2 (grid5.coords t) = 1#1 then k5_pay3 (acc5 V c t.val t.isLt) (iblk5 V c 2 t) else (dat5 V c).before 3 t d)
      ⊢ (dat5 V c).leavesExact 3 t := by
  by_cases h : k5_cond2 (grid5.coords t) = 1#1
  · rw [if_pos h, show (dat5 V c).leavesExact 3 t = owns c (ms5_ t 3) fullShare ((dat5 V c).after 3 t) from by
      unfold Dat.leavesExact; rw [show cfg5.idle 3 (grid5.coords t) = false from congrArg (fun b => !(b == 1#1)) h]]
    exact .rfl
  · rw [if_neg h, Dat.leavesExact_idle (dat5 V c) 3 t (by
      show (!(k5_cond2 (grid5.coords t) == 1#1)) = true; rw [Bool.not_eq_true', beq_eq_false_iff_ne]; exact h)
      (noFlush5_3 t (mt (hcond5_1 t).mpr h))]
    iintro H; iexists d; iexact H

-- The body at any point: the inputs' buffers hold their blocks; the invariant hands over the accumulator and takes it back at this point's contents.
theorem sound_body5 (c : Dev nD) (t : Fin cfg5.N) :
    iprop(Phi5 c (acc5_at V c t.val) ∗ (dat5 V c).owesAt () t.castSucc
        ∗ (∃ d, owns c (ms5_ t 0) fullShare ((dat5 V c).before 0 t d))
        ∗ (∃ d, owns c (ms5_ t 1) fullShare ((dat5 V c).before 1 t d))
        ∗ (∃ d, owns c (ms5_ t 2) fullShare ((dat5 V c).before 2 t d))
        ∗ (∃ d, owns c (ms5_ t 3) fullShare ((dat5 V c).before 3 t d)))
      ⊢ wp frame (wpE (defs₀ (F := F)) Variants.none c none) Set.univ (body5 t) fun _ =>
        iprop(Phi5 c (acc5_at V c (t.val + 1)) ∗ (dat5 V c).owesAt () t.castSucc
          ∗ owns c (ms5_ t 0) fullShare (iblk5 V c 0 t) ∗ owns c (ms5_ t 1) fullShare (iblk5 V c 1 t)
          ∗ owns c (ms5_ t 2) fullShare (iblk5 V c 2 t) ∗ (dat5 V c).leavesExact 3 t) := by
  simp only [before5_0, before5_1, before5_2]
  unfold Phi5 acc5_at
  iintro ⟨⟨⟨⟨%d, %hd, HS⟩, HR⟩, Hg⟩, Ho, ⟨%d0, H0⟩, ⟨%d1, H1⟩, ⟨%d2, H2⟩, ⟨%d3, H3⟩⟩
  iapply (run5_pt c _ _ _ _ _ _ _ _ _ _ _ _ _ (iblk5 V c 2 t) ((dat5 V c).before 3 t d3) _ _ (acc5_next V c t d hd) Set.univ _)
  iframe H0 H1 H2 H3 HS
  iintro ⟨H0, H1, H2, H3, HS⟩
  iframe H0 H1 H2 HR Hg Ho
  isplitl [HS]
  · iexists _; isplitr; swap; iexact HS
    ipureintro; intro k hk e; cases e; rfl
  · iapply (body5_out V c t d3); iexact H3

-- The body obligation, at every point.
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Seg5.lean ====
import proofs.«110469_j83107617177903_1_alg».proof.Proof.KI.SegLib
import proofs.«110469_j83107617177903_1_alg».proof.Proof.KI.Frame5

noncomputable section

namespace Cert.KernelIdeal.Hand

open Cert.KernelIdeal Cert.KernelIdeal.Gen
open Idealize.ShloMosaic

variable {F : FTy → Type} [FloatOps F] (m : (ℓ : Loc nD τ sig) → Buf (Elt F) ℓ)

-- Region 5 as a segment of @main from the contents `W16` to `W17`, which differ at window 3's array only.
def reg5 : Pipeline.RegionSeg (pcfgs (F := F)) adm (pdats m) () defs₀ Variants.none L lv 5 :=
  mkReg m launch5 (W16 m) (W17 m) (3 : Fin cfg5.W) (upd17_self m) (upd17_of m) (by decide)
    (fun _ _ => rfl) (body_obligation5 _) (hin5 _) (hout5 _)

end Cert.KernelIdeal.Hand

end
-- ==== Proof.KI.Run.lean ====
import proofs.«110469_j83107617177903_1_alg».proof.Proof.KI.Seg0
import proofs.«110469_j83107617177903_1_alg».proof.Proof.KI.Seg1
import proofs.«110469_j83107617177903_1_alg».proof.Proof.KI.Seg2
import proofs.«110469_j83107617177903_1_alg».proof.Proof.KI.Seg3
import proofs.«110469_j83107617177903_1_alg».proof.Proof.KI.Seg4
import proofs.«110469_j83107617177903_1_alg».proof.Proof.KI.Seg5

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- @main as a list of segments, with the same rest R between any two of them.
abbrev mainSegs (c : Dev nD) : List (Seg (pcfgs (F := F)) adm (pdats m) () defs₀ Variants.none L lv) :=
  segs m (outs m) Variants.none L lv (fun _ => R) () (pdats m) (reg0 m) (reg1 m) (reg2 m) (reg3 m) (reg4 m) (reg5 m) c

-- On one core the launch's resources give the buffers held at the launch contents, beside R.
theorem launch_core (c : Dev nD) :
    iprop(unscopedBufs c (fun b => m ((c.tc : Thread nD τ).loc b)) ∗ unscopedSems0 c
        ∗ owes (c.tc : Thread nD τ) ((0 : Dev nD → CellTallies nD τ sig Unit) c) ∅
        ∗ Pipeline.launchCred (0 : Dev nD → CellTallies nD τ sig Unit) c ∗ prngReg c (ρ c) ∗ (BI.emp : sProp 𝕄))
      ⊢ (iprop(StableHlo.held (c : Thread nD τ) (Pipeline.ucRefs τ sig) (V0 m c) ∗ R c) : sProp 𝕄) := by
  rw [← Pipeline.unscopedBufs_held (Ix := Unit) (Name := ℕ) (U := UR sig nD τ) (Lvl := ℕ) c (V0 m c)]
  refine sep_mono .rfl ?_
  iintro ⟨-, HO, -, Hp, -⟩
  isplitl [Hp]; · iexists _; iexact Hp
  iexists ∅; iexact HO

-- Step by step the generated valuations with these outputs are the named contents; a link across them renames contents.
theorem outs_v38 (J : ℕ) (c : Dev nD) : outs m J main_v38 c = o10 m c := rfl
theorem outs_v39 (J : ℕ) (c : Dev nD) : outs m J main_v39 c = o11 m c := rfl
theorem outs_v41 (J : ℕ) (c : Dev nD) : outs m J main_v41 c = o13 m c := rfl
theorem outs_v42 (J : ℕ) (c : Dev nD) : outs m J main_v42 c = o14 m c := rfl
theorem outs_v43 (J : ℕ) (c : Dev nD) : outs m J main_v43 c = o15 m c := rfl
theorem V10_eq (c : Dev nD) : V10 m (outs m) c = W10 m c := by
  show Function.update (V9 m c) main_v38 (outs m 10 main_v38 c) = _; rw [outs_v38]
theorem V11_eq (c : Dev nD) : V11 m (outs m) c = W11 m c := by
  show Function.update (V10 m (outs m) c) main_v39 (outs m 11 main_v39 c) = _; rw [V10_eq, outs_v39]
theorem V12_eq (c : Dev nD) : V12 m (outs m) c = W12 m c := by
  show StableHlo.after hostOps2 (V11 m (outs m) c) = _; rw [V11_eq]
theorem V13_eq (c : Dev nD) : V13 m (outs m) c = W13 m c := by
  show Function.update (V12 m (outs m) c) main_v41 (outs m 13 main_v41 c) = _; rw [V12_eq, outs_v41]
theorem V14_eq (c : Dev nD) : V14 m (outs m) c = W14 m c := by
  show Function.update (V13 m (outs m) c) main_v42 (outs m 14 main_v42 c) = _; rw [V13_eq, outs_v42]
theorem V15_eq (c : Dev nD) : V15 m (outs m) c = W15 m c := by
  show Function.update (V14 m (outs m) c) main_v43 (outs m 15 main_v43 c) = _; rw [V14_eq, outs_v43]
theorem link {V W : Valuation τ sig (Elt F)} (h : V = W) (c : Dev nD) :
    iprop(StableHlo.held (c : Thread nD τ) (Pipeline.ucRefs τ sig) V ∗ R c)
      ⊢ (iprop(StableHlo.held (c : Thread nD τ) (Pipeline.ucRefs τ sig) W ∗ R c) : sProp 𝕄) := by subst h; exact .rfl

set_option maxHeartbeats 1600000 in
set_option backward.isDefEq.respectTransparency.types false in
-- Most links of the chain are reflexive, the launch is core by core, and the end reads the last contents.
theorem run_all : θ_run defs (onTc (τ := τ) (main (F := F))) ⟨m, fun _ => 0, ρ⟩ (fun r => ∀ c : Dev nD,
      r.2.mem ((c.tc : Thread nD τ).loc main_v45) = o17 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ Variants.none L lv m ρ main
    (mainSegs m)
    (fun c Q => by
      rewrite [main_chain c, Seg.run_eq_chain,
        show (mainSegs m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()) ] from rfl]
      exact .rfl)
    (fun c => by simp only [mainSegs, segs, Seg.pipes_host, Seg.pipes_region, Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact sep_emp.2.trans fupd_intro)
    (T₀ := fun c => iprop(StableHlo.held (c : Thread nD τ) (Pipeline.ucRefs τ sig) (V0 m c) ∗ R c))
    (Tₙ := fun c => StableHlo.held (c : Thread nD τ) (Pipeline.ucRefs τ sig) (W17 m c))
    (hch := fun c => ⟨.rfl, .rfl, .rfl, .rfl, .rfl, .rfl, .rfl, .rfl, .rfl, .rfl, .rfl,
      link (V11_eq m c).symm c, link (congrArg (StableHlo.after hostOps2) (V11_eq m c)) c, .rfl, .rfl,
      link (V15_eq m c).symm c, link (congrArg (StableHlo.after hostOps5) (V15_eq m c)) c, sep_mono .rfl sep_elim_right⟩)
    (hinit := (sep_elim_left.trans (bigSep_mono fun c _ => launch_core m ρ c)).trans fupd_intro)
    (QY := _) (hfin := fun c s' => ?_) (hQ := fun _ h => h)
  unfold StableHlo.held
  iintro ⟨Hh, HSI⟩
  ihave Hr := (pointsTo_read_all (Pipeline.ucRefs τ sig) (fun b => ((c : Thread nD τ).1, b)) (W17 m c) s') $$ [Hh HSI]
  · isplitl [Hh] <;> iassumption
  icases Hr with ⟨%h, HSI⟩
  imodintro
  isplitr
  · ipureintro
    have rd := fun (r : Ref sig .tc) hr => h (Proc.devRef .tc r) (Finset.mem_filter.mpr ⟨StableHlo.devRef_mem_tcRefs r, hr⟩)
    exact ⟨(rd main_v45 (by decide)).trans (upd17_self m c),
      (rd main_arg0 (by decide)).trans (V17_main_arg0 m (outs m) c), (rd main_arg1 (by decide)).trans (V17_main_arg1 m (outs m) c),
      (rd main_arg2 (by decide)).trans (V17_main_arg2 m (outs m) c), (rd main_arg3 (by decide)).trans (V17_main_arg3 m (outs m) c),
      (rd main_arg4 (by decide)).trans (V17_main_arg4 m (outs m) c), (rd main_arg5 (by decide)).trans (V17_main_arg5 m (outs m) c)⟩
  · iexact HSI

-- Forgetting the value of the result leaves the frame claim.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Arr (n0 n1 : Nat) : Type := (⟨2, ![n0, n1]⟩ : Shape).Idx → EReal
abbrev Tab (n0 n1 : Nat) : Type := (⟨2, ![n0, n1]⟩ : Shape).Idx → BitVec 32

def row {n0 n1 : Nat} (i : (⟨2, ![n0, n1]⟩ : Shape).Idx) : Fin n0 := ⟨(i 0).val, idx2_lt0 i⟩
def col {n0 n1 : Nat} (i : (⟨2, ![n0, n1]⟩ : Shape).Idx) : Fin n1 := ⟨(i 1).val, idx2_lt1 i⟩

@[simp] theorem row_ix2 {n0 n1 : Nat} (p : Fin n0) (q : Fin n1) : row (ix2 p q) = p := rfl
@[simp] theorem col_ix2 {n0 n1 : Nat} (p : Fin n0) (q : Fin n1) : col (ix2 p q) = q := rfl

-- The indicator of two words being equal, as a number.
def oh (a b : BitVec 32) : EReal := if a = b then 1 else 0

def proj {D : Nat} (x : Arr 50000 256) (W : Arr 256 D) : Arr 50000 D :=
  fun i => ∑ k : Fin 256, x (ix2 (row i) k) * W (ix2 k (col i))

-- A row lookup as a sum: the one-hot row of the source word times the table, scaled by the weight.
def gatherSum {D : Nat} (xw : Arr 50000 D) (srcp : Tab 850944 1) (normp : Arr 850944 1) : Arr 850944 D :=
  fun i => (∑ n : Fin 50000, oh (BitVec.ofNat 32 n.val) (srcp (ix2 (row i) 0)) * xw (ix2 n (col i)))
    * normp (ix2 (row i) 0)

-- A scatter-add as a sum: at node d the messages of all slots weighted by [d = dst e], plus the bias.
def scatterSum {D : Nat} (msg : Arr 850944 D) (dstp : Tab 850944 1) (b : Arr 1 D) : Arr 50000 D :=
  fun i => (∑ e : Fin 850944, oh (BitVec.ofNat 32 (row i).val) (dstp (ix2 e 0)) * msg (ix2 e (col i)))
    + b (ix2 0 (col i))

def relu {n0 n1 : Nat} (x : Arr n0 n1) : Arr n0 n1 := fun i => max (x i) 0

theorem proj_apply {D : Nat} (x : Arr 50000 256) (W : Arr 256 D) (p : Fin 50000) (q : Fin D) :
    proj x W (ix2 p q) = ∑ k : Fin 256, x (ix2 p k) * W (ix2 k q) := rfl

theorem gatherSum_apply {D : Nat} (xw : Arr 50000 D) (srcp : Tab 850944 1) (normp : Arr 850944 1) (e : Fin 850944) (q : Fin D) :
    gatherSum xw srcp normp (ix2 e q)
      = (∑ n : Fin 50000, oh (BitVec.ofNat 32 n.val) (srcp (ix2 e 0)) * xw (ix2 n q)) * normp (ix2 e 0) := rfl

theorem scatterSum_apply {D : Nat} (msg : Arr 850944 D) (dstp : Tab 850944 1) (b : Arr 1 D) (d : Fin 50000) (q : Fin D) :
    scatterSum msg dstp b (ix2 d q)
      = (∑ e : Fin 850944, oh (BitVec.ofNat 32 d.val) (dstp (ix2 e 0)) * msg (ix2 e q)) + b (ix2 0 q) := rfl

def layer {D : Nat} (x : Arr 50000 256) (W : Arr 256 D) (b : Arr 1 D) (srcp dstp : Tab 850944 1) (normp : Arr 850944 1) :
    Arr 50000 D :=
  scatterSum (gatherSum (proj x W) srcp normp) dstp b

def net (x : Arr 50000 256) (W1 : Arr 256 256) (b1 : Arr 1 256) (W2 : Arr 256 128) (b2 : Arr 1 128)
    (srcp dstp : Tab 850944 1) (normp : Arr 850944 1) : Arr 50000 128 :=
  layer (relu (layer x W1 b1 srcp dstp normp)) W2 b2 srcp dstp normp

abbrev Vec1 (n : Nat) : Type := (⟨1, ![n]⟩ : Shape).Idx → EReal
abbrev Tab1 (n : Nat) : Type := (⟨1, ![n]⟩ : Shape).Idx → BitVec 32

-- The 850000 real edge slots padded to 850944 with zero words and zero weights.
def padTab (f : Tab1 850000) : Tab 850944 1 :=
  fun i => if h : (row i).val < 850000 then f (ix1 ⟨(row i).val, h⟩) else 0#32

def padArr (f : Vec1 850000) : Arr 850944 1 :=
  fun i => if h : (row i).val < 850000 then f (ix1 ⟨(row i).val, h⟩) else 0

def biasRow {D : Nat} (b : Vec1 D) : Arr 1 D := fun i => b (ix1 (col i))

-- The table row an index word names: a negative word counts from the end, then the value is clamped into the rows.
def nodeOf (s : BitVec 32) : Fin 50000 := ⟨min (if s.toInt < 0 then s + 50000#32 else s).toInt.toNat 49999, by omega⟩

-- One layer of the reference: at node d, the projected source rows times the weights of the edges into d, plus the bias.
def refLayer {D : Nat} (x : Arr 50000 256) (W : Arr 256 D) (b : Vec1 D) (src dst : Tab1 850000) (norm : Vec1 850000) :
    Arr 50000 D :=
  fun i => (∑ e ∈ Finset.univ.filter (fun e : Fin 850000 => (dst (ix1 e)).toInt = ((row i).val : ℤ)),
      proj x W (ix2 (nodeOf (src (ix1 e))) (col i)) * norm (ix1 e)) + b (ix1 (col i))

def refNet (x : Arr 50000 256) (W1 : Arr 256 256) (b1 : Vec1 256) (W2 : Arr 256 128) (b2 : Vec1 128)
    (src dst : Tab1 850000) (norm : Vec1 850000) : Arr 50000 128 :=
  refLayer (relu (refLayer x W1 b1 src dst norm)) W2 b2 src dst norm

end Cert.Spec

end
-- ==== Proof.KI.Host.lean ====
import proofs.«110469_j83107617177903_1_alg».proof.Proof.Gen.KernelIdeal.Regions
import proofs.«110469_j83107617177903_1_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx
open Idealize.SL.Sem

-- Row k of the edge table, then the self-loop words 0 … 49999.
def edgeK (k : Nat) (hk : S2x800000.Slices ![k, 0] S1x800000) (a : Cert.Spec.Tab 2 800000) : Cert.Spec.Tab1 850000 :=
  concatenate S850000 0
    [⟨S800000, shapeCast S800000 (extractStridedSlice S1x800000 ![k, 0] a hk) Gen.shapeCasts_S1x800000_S800000⟩,
     ⟨S50000, iotaInDim S50000 32 0⟩] Gen.concatenates_S800000_S50000_S850000_d0

def srcK (a : Cert.Spec.Tab 2 800000) : Cert.Spec.Tab1 850000 := edgeK 0 Gen.slices_S2x800000_S1x800000_0_0 a

def dstK (a : Cert.Spec.Tab 2 800000) : Cert.Spec.Tab1 850000 := edgeK 1 Gen.slices_S2x800000_S1x800000_1_0 a

-- An index word as a gather reads it: 50000 is added to a negative word.
def wrapIdx (s : IVec S850000 32) : IVec S850000x1 32 :=
  broadcastInDim S850000x1 ![0] Gen.bcast_S850000_S850000x1_0
    (select (cmpi .slt s (broadcastInDim S850000 ![] Gen.bcast_S_S850000 (constantI S_ 32 0#32)))
      (addi s (broadcastInDim S850000 ![] Gen.bcast_S_S850000 (constantI S_ 32 50000#32))) s)

-- The in-degree of every node: ones added up by destination word.
def degK (dst : IVec S850000 32) : FVec Ideal S50000 .f32 :=
  Host.scatterAdd scatter_S50000_S850000x1_S850000_n_0_0_1
    (broadcastInDim S50000 ![] Gen.bcast_S_S50000 (constant (F := Ideal) S_ .f32 0x00000000#32))
    (broadcastInDim S850000x1 ![0] Gen.bcast_S850000_S850000x1_0 dst)
    (broadcastInDim S850000 ![] Gen.bcast_S_S850000 (constant (F := Ideal) S_ .f32 0x3F800000#32))

-- The node factor 1 / √(max d 1) where the in-degree d is positive, 0 elsewhere.
def disK (dst : IVec S850000 32) : FVec Ideal S50000 .f32 :=
  select (cmpf .ogt (degK dst) (broadcastInDim S50000 ![] Gen.bcast_S_S50000 (constant (F := Ideal) S_ .f32 0x00000000#32)))
    (Host.rsqrt (maximumf (degK dst) (broadcastInDim S50000 ![] Gen.bcast_S_S50000 (constant (F := Ideal) S_ .f32 0x3F800000#32))))
    (broadcastInDim S50000 ![] Gen.bcast_S_S50000 (constant (F := Ideal) S_ .f32 0x00000000#32))

-- The edge weight: the node factor at the source times the node factor at the destination.
def normK (a : Cert.Spec.Tab 2 800000) : Cert.Spec.Vec1 850000 :=
  mulf (Host.gather gather_S50000_S850000x1_S850000_n_0_n_n_0_1_1 (disK (dstK a)) (wrapIdx (srcK a)))
    (Host.gather gather_S50000_S850000x1_S850000_n_0_n_n_0_1_1 (disK (dstK a)) (wrapIdx (dstK a)))

-- 850000 entries padded to 850944 and cast to a column: entry r below 850000, the padding value from there on.
theorem padCol_apply {α : Type} (s : S850000.Idx → α) (z : S_.Idx → α) (i : S850944x1.Idx) :
    shapeCast S850944x1 (pad S850944 ![0] ![944] ![0] s z Gen.pads_S850000_S850944_09440 Gen.h_S_)
        Gen.shapeCasts_S850944_S850944x1 i
      = if h : (i 0).val < 850000 then s (ix1 ⟨(i 0).val, h⟩) else z ix0 := by
  have hi1 := idx2_lt1 i
  refine (shapeCast_apply _ Gen.shapeCasts_S850944_S850944x1 i (ix1 ⟨(i 0).val, idx2_lt0 i⟩) ?_).trans ?_
  · rw [Shape.rowMajor_val_one, Shape.rowMajor_val_two]
    show (i 0).val = (i 0).val * 1 + (i 1).val
    omega
  · split <;> rename_i h
    · exact pad_apply_of_inside _ _ _ s z _ _ _ (ix1 ⟨(i 0).val, h⟩) fun a => by
        match a with
        | ⟨0, _⟩ => show (i 0).val = 0 + (i 0).val * (0 + 1); omega
    · exact (pad_apply_of_not_inside _ _ _ s z _ _ _ (0 : Fin 1) fun hin => h (by simpa using hin.2.2)).trans
        (congrArg z (eq_ix0 _))

theorem padCol_eq_padTab (s : Cert.Spec.Tab1 850000) (z : S_.Idx → BitVec 32) (hz : z ix0 = 0#32) :
    shapeCast S850944x1 (pad S850944 ![0] ![944] ![0] s z Gen.pads_S850000_S850944_09440 Gen.h_S_)
        Gen.shapeCasts_S850944_S850944x1 = Cert.Spec.padTab s :=
  funext fun i => (padCol_apply s z i).trans (by rw [hz]; rfl)

theorem padCol_eq_padArr (s : Cert.Spec.Vec1 850000) (z : S_.Idx → EReal) (hz : z ix0 = 0) :
    shapeCast S850944x1 (pad S850944 ![0] ![944] ![0] s z Gen.pads_S850000_S850944_09440 Gen.h_S_)
        Gen.shapeCasts_S850944_S850944x1 = Cert.Spec.padArr s :=
  funext fun i => (padCol_apply s z i).trans (by rw [hz]; rfl)

theorem castRow_eq_biasRow {D : Nat} (b : Cert.Spec.Vec1 D) (h : (⟨1, ![D]⟩ : Shape).ShapeCasts ⟨2, ![1, D]⟩) :
    shapeCast ⟨2, ![1, D]⟩ b h = Cert.Spec.biasRow b :=
  funext fun i => (congrArg _ (eq_ix2 i)).trans (shapeCast_a_1a_apply b h (i 0) (i 1))

variable (m : (ℓ : Loc nD τ sig) → Buf (Elt Ideal) ℓ)

-- The host stretches pad the source and the destination words with zero words and cast them to columns.
theorem V9_src (c : Dev nD) :
    V9 m c (Proc.devRef .tc main_v33) = Cert.Spec.padTab (srcK (m ((c : Thread nD τ).loc main_arg1))) := by
  refine Eq.trans ?_ (padCol_eq_padTab _ (constantI S_ 32 0#32) rfl)
  after_results
  rfl

theorem V9_dst (c : Dev nD) :
    V9 m c (Proc.devRef .tc main_v35) = Cert.Spec.padTab (dstK (m ((c : Thread nD τ).loc main_arg1))) := by
  refine Eq.trans ?_ (padCol_eq_padTab _ (constantI S_ 32 0#32) rfl)
  after_results
  rfl

-- The first stretch leaves the source words, the destination words, the test "in-degree positive" and 1 / √(max d 1).
theorem V2_v3 (c : Dev nD) : V2 m c (Proc.devRef .tc main_v3) = srcK (m ((c : Thread nD τ).loc main_arg1)) := by
  after_results
  rfl

theorem V2_v6 (c : Dev nD) : V2 m c (Proc.devRef .tc main_v6) = dstK (m ((c : Thread nD τ).loc main_arg1)) := by
  after_results
  rfl

theorem V1_v12 (c : Dev nD) : V1 m c (Proc.devRef .tc main_v12)
    = cmpf .ogt (degK (dstK (m ((c : Thread nD τ).loc main_arg1))))
        (broadcastInDim S50000 ![] Gen.bcast_S_S50000 (constant (F := Ideal) S_ .f32 0x00000000#32)) := by
  after_results
  rfl

theorem V1_v15 (c : Dev nD) : V1 m c (Proc.devRef .tc main_v15)
    = Host.rsqrt (maximumf (degK (dstK (m ((c : Thread nD τ).loc main_arg1))))
        (broadcastInDim S50000 ![] Gen.bcast_S_S50000 (constant (F := Ideal) S_ .f32 0x3F800000#32))) := by
  after_results
  rfl

-- The second stretch selects the node factor, from any contents before it.
set_option maxRecDepth 16384 in
theorem second_v16 (W : Valuation τ sig (Elt Ideal)) :
    (StableHlo.after hostOps0_1 W (Proc.devRef .tc main_v16) : S50000.Idx → EReal)
      = select (W (Proc.devRef .tc main_v12) : S50000.Idx → BitVec 1) (W (Proc.devRef .tc main_v15) : S50000.Idx → EReal)
          (broadcastInDim S50000 ![] Gen.bcast_S_S50000 (W (Proc.devRef .tc main_cst_3) : S_.Idx → EReal)) := by
  after_results
  rfl

theorem V2_v16 (c : Dev nD) : V2 m c (Proc.devRef .tc main_v16) = disK (dstK (m ((c : Thread nD τ).loc main_arg1))) := by
  refine (second_v16 (V1 m c)).trans ?_
  rw [V1_v12 m c, V1_v15 m c,
    show V1 m c (Proc.devRef .tc main_cst_3) = constant (F := Ideal) S_ .f32 0x00000000#32 by after_results]
  rfl

-- The third stretch gathers the node factor at both ends of every edge and multiplies.
theorem V3_v31 (c : Dev nD) :
    V3 m c (Proc.devRef .tc main_v31) = normK (m ((c : Thread nD τ).loc main_arg1)) := by
  have h3 := V2_v3 m c
  have h6 := V2_v6 m c
  have h16 := V2_v16 m c
  dsimp only [V3]
  generalize V2 m c = W at h3 h6 h16 ⊢
  after_results_simp
  rw [h16, h3, h6]
  rfl

-- The last six stretches pad the weights with converted zero words and cast them to a column.
theorem V9_norm (c : Dev nD) :
    V9 m c (Proc.devRef .tc main_v37) = Cert.Spec.padArr (normK (m ((c : Thread nD τ).loc main_arg1))) := by
  refine Eq.trans ?_ (padCol_eq_padArr _ (sitofp (F := Ideal) .f32 (constantI S_ 32 0#32)) (sitofp_zero (φ := .f32)))
  rw [← V3_v31 m c]
  dsimp only [V9, V8, V7, V6, V5, V4]
  generalize V3 m c = W
  after_results
  rfl

-- Each bias vector is cast to a one-row matrix.
theorem bias1 (W : Valuation τ sig (Elt Ideal)) :
    StableHlo.after hostOps2 W (Proc.devRef .tc main_v40) = Cert.Spec.biasRow (W (Proc.devRef .tc main_arg3)) := by
  after_results
  exact castRow_eq_biasRow _ _

theorem bias2 (W : Valuation τ sig (Elt Ideal)) :
    StableHlo.after hostOps5 W (Proc.devRef .tc main_v44) = Cert.Spec.biasRow (W (Proc.devRef .tc main_arg5)) := by
  after_results
  exact castRow_eq_biasRow _ _

-- A source word is a word of row 0 of the table or a self-loop word below 50000: either way it names a node.
theorem srcK_range (a : Cert.Spec.Tab 2 800000)
    (h : ∀ e : Fin 800000, 0 ≤ (a (ix2 0 e)).toInt ∧ (a (ix2 0 e)).toInt < 50000) :
    ∀ e : Fin 850000, 0 ≤ (srcK a (ix1 e)).toInt ∧ (srcK a (ix1 e)).toInt < 50000 := by
  intro e
  have := e.isLt
  unfold srcK edgeK
  by_cases he : e.val < 800000
  · rw [concatenate_pair_apply_left (t := S850000) (s₁ := S800000) (s₂ := S50000) (0 : Fin 1) _ _ _ (ix1 e) rfl
        (ix1 ⟨e.val, he⟩) fun b => by match b with | ⟨0, _⟩ => rfl,
      shapeCast_1a_a_apply, slice2_axis0_apply 0 a _ (0 : Fin 1) ⟨e.val, he⟩ (0 : Fin 2) rfl]
    exact h ⟨e.val, he⟩
  · have hl : e.val - 800000 < 50000 := by omega
    rw [concatenate_pair_apply_right (t := S850000) (s₁ := S800000) (s₂ := S50000) (0 : Fin 1) _ _ _ (ix1 e) rfl rfl
        (ix1 ⟨e.val - 800000, hl⟩) (fun b hb => absurd (Subsingleton.elim _ _) hb) (by show e.val - 800000 + 800000 = e.val; omega)]
    show 0 ≤ (BitVec.ofNat 32 (e.val - 800000)).toInt ∧ (BitVec.ofNat 32 (e.val - 800000)).toInt < 50000
    rw [StableHlo.Predicate.toInt_ofNat_small _ (by omega)]
    omega

end Cert.KernelIdeal.Hand

end
-- ==== Proof.KI.GatherLib.lean ====
import proofs.«110469_j83107617177903_1_alg».proof.Proof.Spec
import Idealize.ShloMosaic.Lib.Pipeline.Value
import Idealize.ShloMosaic.PureOps.Ideal.Laws

noncomputable section

namespace Cert.Gather

open Cert.Spec Idealize.ShloMosaic Idealize.ShloMosaic.ValueIdx

-- The contraction index is its one coordinate k, and the operands are read at (r, k) and (k, q).
theorem matmul_plain_apply {φ₁ φ₂ : FTy} (M K N : ℕ) (lhs : FVec Ideal ⟨2, ![M, K]⟩ φ₁) (rhs : FVec Ideal ⟨2, ![K, N]⟩ φ₂)
    (r : Fin M) (q : Fin N) :
    FloatOps.matmul (DotDims.plain M K N) none lhs rhs (constant _ .f32 0x00000000#32) (ix2 r q)
      = ∑ k : Fin K, lhs (ix2 r k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg lhs (Shape.idx_ext₂ rfl hk)) (congrArg rhs (Shape.idx_ext₂ hk rfl))

-- Unfolds the definition: what is left is arithmetic on the block index.
theorem flush_iff {sig : RefSig} {G : Pipeline.Grid} (w : Pipeline.Window sig G) (ho : w.isOut = true) (t : Fin G.N) :
    w.flush t = true ↔ t.val + 1 = G.N ∨ ∃ h : t.val + 1 < G.N, w.index ⟨t.val + 1, h⟩ ≠ w.index t := by
  unfold Pipeline.Window.flush
  rw [ho, Bool.true_and, Bool.or_eq_true, decide_eq_true_iff, decide_eq_true_iff]

-- The compare bit is the word 1 or 0, and the conversion of a word is the cast of its integer.
theorem onehot_word (a b : BitVec 32) :
    FloatOps.sitofp (F := Ideal) .f32 ((IntOp.cmpi .eq a b).setWidth 32) = oh a b := by
  show ((((BitVec.ofBool (a == b)).setWidth 32).toInt : ℝ) : EReal) = if a = b then 1 else 0
  by_cases h : a = b
  · rw [if_pos h, beq_iff_eq.mpr h]; exact congrArg Real.toEReal Int.cast_one
  · rw [if_neg h, beq_eq_false_iff_ne.mpr h]; exact congrArg Real.toEReal Int.cast_zero

-- Total in n, zero past the table, so that a sum over a stretch of naturals needs no bound.
def ohTerm {D : Nat} (xw : Arr 50000 D) (s : BitVec 32) (q : Fin D) (n : ℕ) : EReal :=
  if h : n < 50000 then oh (BitVec.ofNat 32 n) s * xw (ix2 ⟨n, h⟩ q) else 0

theorem ohTerm_of_lt {D : Nat} (xw : Arr 50000 D) (s : BitVec 32) (q : Fin D) (n : ℕ) (h : n < 50000) :
    ohTerm xw s q n = oh (BitVec.ofNat 32 n) s * xw (ix2 ⟨n, h⟩ q) := dif_pos h

-- The range splits at nb · 2000, and the new stretch lies inside the table.
theorem sum_ohTerm_succ {D : Nat} (xw : Arr 50000 D) (s : BitVec 32) (q : Fin D) (nb : ℕ) (hnb : nb < 25) :
    (∑ m ∈ Finset.range (nb * 2000), ohTerm xw s q m)
        + ∑ j : Fin 2000, oh (BitVec.ofNat 32 (nb * 2000 + j.val)) s * xw (ix2 ⟨nb * 2000 + j.val, by omega⟩ q)
      = ∑ m ∈ Finset.range ((nb + 1) * 2000), ohTerm xw s q m := by
  rw [Nat.succ_mul, Finset.sum_range_add, Finset.sum_range (fun x => ohTerm xw s q (nb * 2000 + x))]
  exact congrArg _ (Finset.sum_congr rfl fun j _ => (ohTerm_of_lt xw s q _ (by omega)).symm)

-- Every natural below 50000 is inside the table.
theorem sum_ohTerm_full {D : Nat} (xw : Arr 50000 D) (s : BitVec 32) (q : Fin D) :
    (∑ m ∈ Finset.range 50000, ohTerm xw s q m) = ∑ n : Fin 50000, oh (BitVec.ofNat 32 n.val) s * xw (ix2 n q) :=
  (Finset.sum_range _).trans (Finset.sum_congr rfl fun n _ => ohTerm_of_lt xw s q n.val n.isLt)

end Cert.Gather

end
-- ==== Proof.KI.Val0.lean ====
import proofs.«110469_j83107617177903_1_alg».proof.Proof.KI.Data0
import proofs.«110469_j83107617177903_1_alg».proof.Proof.KI.GatherLib

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Gather

-- The changes of format are the identity on the extended reals, so the body is the plain product into zeros.
theorem k0_pay1_apply (x : FVec Ideal S2000x256 .f32) (W : FVec Ideal S256x256 .f32) (p : Fin 2000) (q : Fin 256) :
    k0_pay1 (F := Ideal) x W (ix2 p q) = ∑ k : Fin 256, x (ix2 p k) * W (ix2 k q) := by
  unfold k0_pay1
  exact matmul_plain_apply _ _ _ (truncf .bf16 _ bitsLt_bf16_f32) (truncf .bf16 W bitsLt_bf16_f32) p q

-- The grid has 25 points; checked at each.
theorem idx0 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

variable (V : (c : Dev nD) → (b : Ref sig .tc) → Buf (Elt Ideal) ((c : Thread nD τ).loc b))

-- The left block and the output tile have the same block row and the right block is the whole right factor, so the two sums agree term by term.
theorem flushed0_2_eq (c : Dev nD) (t : Fin cfg0.N) :
    (dat0 V c).flushed 2 t
      = ((cfg0.win 2).blk t).view.read (Elt Ideal) (Cert.Spec.proj (V c main_arg0) (V c main_arg2)) := by
  show (cfg0.win 2).cut (grid0.coords t) ((dat0 V c).after 2 t) = _
  rw [after0_2]
  refine funext fun (y : S2000x256.Idx) => ?_
  obtain ⟨p, q, rfl⟩ : ∃ (p : Fin 2000) (q : Fin 256), y = ix2 p q := ⟨y 0, y 1, eq_ix2 y⟩
  refine (k0_pay1_apply (iblk0 V c 0 t) (iblk0 V c 1 t) p q).trans ?_
  show _ = Cert.Spec.proj (V c main_arg0) (V c main_arg2) (((cfg0.win 2).blk t).view.emb (ix2 p q))
  unfold Cert.Spec.proj
  refine Finset.sum_congr rfl fun k _ => congrArg₂ (· * ·) ?_ ?_
  · exact congrArg (V c main_arg0) (Shape.idx_ext₂ rfl (by show 0 * 256 + 1 * k.val = k.val; omega))
  · exact congrArg (V c main_arg2) (Shape.idx_ext₂ (by show 0 * 256 + 1 * k.val = k.val; omega) rfl)

-- The block row at t + 1 is t + 1, not t.
theorem flushes0_2 (t : Fin cfg0.N) : (cfg0.win 2).flush t = true :=
  (flush_iff win0_2 rfl t).mpr ((Nat.lt_or_ge (t.val + 1) grid0.N).symm.imp (fun h => Nat.le_antisymm t.isLt h)
    fun h => ⟨h, fun e => absurd ((idx0 ⟨t.val + 1, h⟩).1.symm.trans ((congrFun e 0).trans (idx0 t).1)) (Nat.succ_ne_self _)⟩)

-- Row r lies in tile r / 2000, whose block row is r / 2000 and block column 0.
theorem rows_cover0_2 (i : S50000x256.Idx) :
    ∃ t : Fin cfg0.N, (cfg0.win 2).flush t = true ∧ i ∈ ((cfg0.win 2).blk t).view.set := by
  have h0 : (i 0).val < 50000 := idx2_lt0 i
  have h1 : (i 1).val < 256 := idx2_lt1 i
  obtain ⟨t, ht⟩ : ∃ t : Fin cfg0.N, t.val = (i 0).val / 2000 := ⟨⟨_, by rw [show cfg0.N = 25 from N_0]; omega⟩, rfl⟩
  obtain ⟨e0, e1⟩ := idx0 t
  refine ⟨t, flushes0_2 t, ?_⟩
  show i ∈ ((View.whole main_v38).slice (win0_2.rect t)).set
  rw [View.set_slice_whole, Rect.mem_set_unit]
  refine Fin.forall_fin_two.mpr ⟨?_, ?_⟩
  · show win0_2.index t (0 : Fin 2) * 2000 ≤ (i 0).val ∧ (i 0).val < win0_2.index t (0 : Fin 2) * 2000 + 2000
    rw [e0, ht]
    omega
  · show win0_2.index t (1 : Fin 2) * 256 ≤ (i 1).val ∧ (i 1).val < win0_2.index t (1 : Fin 2) * 256 + 256
    rw [e1]
    omega

-- The 25 tiles of the projection cover it: region 0 ends with the projection in its result array.
theorem arr0 (c : Dev nD) :
    (dat0 V c).arrAt 2 cfg0.N = Cert.Spec.proj (V c main_arg0) (V c main_arg2) :=
  (dat0 V c).arrAt_eq_of_cover 2 (Cert.Spec.proj (V c main_arg0) (V c main_arg2))
    (fun t _ => flushed0_2_eq V c t) rows_cover0_2

end Cert.KernelIdeal.Hand

end
-- ==== Proof.KI.Val1Pay.lean ====
import proofs.«110469_j83107617177903_1_alg».proof.Proof.Gen.KernelIdeal.Skeleton
import proofs.«110469_j83107617177903_1_alg».proof.Proof.KI.GatherLib

noncomputable section

namespace Cert.KernelIdeal.Hand

open Cert.KernelIdeal Cert.KernelIdeal.Gen
open Idealize.ShloMosaic Idealize.ShloMosaic.ValueIdx
open Cert.Spec Cert.Gather

-- The word 0 denotes the number 0.
theorem k1_pay1_apply (r : Fin 1024) (q : Fin 256) : (k1_pay1 (F := Ideal)) (ix2 r q) = 0 := by
  unfold k1_pay1
  rw [shapeCast_self]
  exact Ideal.ofBits_zero_f32

-- Column j of the compared words is the word of i 1 · 2000 + j (the word of a natural is a ring map) against the source word of row r; the product sums them over j.
theorem k1_pay2_apply (i : grid1.Coords) (v7 : Vec Ideal S1024x1 .i32) (v15 : Vec Ideal S2000x256 .bf16)
    (v18 : Vec Ideal S1024x256 .f32) (r : Fin 1024) (q : Fin 256) :
    k1_pay2 i v7 v15 v18 (ix2 r q)
      = v18 (ix2 r q) + ∑ j : Fin 2000, oh (BitVec.ofNat 32 ((i 1).val * 2000 + j.val)) (v7 (ix2 r (0 : Fin 1))) * v15 (ix2 j q) := by
  unfold k1_pay2
  rw [shapeCast_self, shapeCast_self, shapeCast_self]
  show v18 (ix2 r q) + FloatOps.matmul (F := Ideal) (DotDims.plain 1024 2000 256) none _ v15 (constant _ .f32 0x00000000#32) (ix2 r q) = _
  rw [matmul_plain_apply]
  congr 1
  refine Finset.sum_congr rfl fun j _ => ?_
  congr 1
  refine (onehot_word _ _).trans (congrArg₂ oh ?_ ?_)
  · rw [broadcastTo_apply _ broadcasts_S1x2000_S1024x2000 (ix2 r j) (ix2 (0 : Fin 1) j) (Fin.forall_fin_two.mpr ⟨rfl, rfl⟩)]
    show BitVec.ofNat 32 (i 1).val * BitVec.ofNat 32 2000 + iota .tc S1x2000 32 [1] iota_S1x2000_d1_w32 (ix2 (0 : Fin 1) j) = _
    rw [iota_single_apply, ← BitVec.ofNat_mul, ← BitVec.ofNat_add]
  · exact broadcastTo_apply v7 broadcasts_S1024x1_S1024x2000 (ix2 r j) (ix2 r (0 : Fin 1)) (Fin.forall_fin_two.mpr ⟨rfl, rfl⟩)

-- The weight column spread along the row reads the weight of row r at every q.
theorem k1_pay3_apply (v26 : Vec Ideal S1024x1 .f32) (v28 : Vec Ideal S1024x256 .f32) (r : Fin 1024) (q : Fin 256) :
    k1_pay3 v26 v28 (ix2 r q) = v28 (ix2 r q) * v26 (ix2 r (0 : Fin 1)) := by
  unfold k1_pay3
  rw [shapeCast_self]
  exact congrArg (v28 (ix2 r q) * ·)
    (broadcastTo_apply v26 broadcasts_S1024x1_S1024x256 (ix2 r q) (ix2 r (0 : Fin 1)) (Fin.forall_fin_two.mpr ⟨rfl, rfl⟩))

end Cert.KernelIdeal.Hand

end
-- ==== Proof.KI.Val1.lean ====
import proofs.«110469_j83107617177903_1_alg».proof.Proof.KI.Data1
import proofs.«110469_j83107617177903_1_alg».proof.Proof.KI.Val1Pay

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec Cert.Gather

variable (V : (c : Dev nD) → (b : Ref sig .tc) → Buf (Elt Ideal) ((c : Thread nD τ).loc b))

-- The strides of the 831 × 25 grid are 25 and 1, and a coordinate's word is the coordinate: it is below 2³².
theorem val1_index (t : Fin grid1.N) :
    (grid1.coords t 1).val = t.val % 25 ∧ win1_0.index t 0 = t.val % 25 ∧ win1_3.index t 0 = t.val / 25 := by
  have ht : t.val < 20775 := N_1 ▸ t.isLt
  refine ⟨?_, ?_, ?_⟩
  · show t.val / 1 % 25 = _; omega
  · show (BitVec.ofNat 32 (t.val / 1 % 25)).toNat = _; rw [BitVec.toNat_ofNat]; omega
  · show (BitVec.ofNat 32 (t.val / 25 % 831)).toNat = _; rw [BitVec.toNat_ofNat]; omega

-- The block row t / 25 changes after t exactly when t % 25 = 24, and the last point 20774 is such a t.
theorem val1_flush_3_iff (t : Fin cfg1.N) : (cfg1.win 3).flush t = true ↔ t.val % 25 = 24 := by
  have hN : grid1.N = 20775 := N_1
  have ht : t.val < 20775 := hN ▸ t.isLt
  have hi : ∀ h : t.val + 1 < grid1.N, win1_3.index ⟨t.val + 1, h⟩ 0 = win1_3.index t 0 ↔ (t.val + 1) / 25 = t.val / 25 :=
    fun h => by rw [(val1_index _).2.2, (val1_index t).2.2]
  refine (flush_iff win1_3 rfl t).trans ⟨?_, fun h24 => ?_⟩
  · rintro (h | ⟨h, hne⟩)
    · omega
    · by_contra h24
      exact hne (funext (Fin.forall_fin_two.mpr ⟨(hi h).mpr (by omega), rfl⟩))
  · exact (Nat.lt_or_ge (t.val + 1) grid1.N).symm.imp (by omega)
      fun h => ⟨h, fun e => absurd ((hi h).mp (congrFun e 0)) (by omega)⟩

-- The table's block at t starts at row (t % 25) · 2000, column 0.
theorem val1_iblk_0 (c : Dev nD) (t : Fin cfg1.N) (p : Fin 2000) (q : Fin 256) (k : Fin 50000)
    (hk : k.val = t.val % 25 * 2000 + p.val) :
    (iblk1 V c 0 t : Vec Ideal S2000x256 .bf16) (ix2 p q) = V c main_v38 (ix2 k q) :=
  congrArg (V c main_v38) (Shape.idx_ext₂
    (by show win1_0.index t 0 * 2000 + 1 * p.val = k.val; rw [(val1_index t).2.1, hk]; omega)
    (by show 0 * 256 + 1 * q.val = q.val; omega))

-- The two columns' blocks have the output's block row t / 25: they start at slot (t / 25) · 1024.
theorem val1_iblk_12 (c : Dev nD) (t : Fin cfg1.N) (r : Fin 1024) (e : Fin 850944)
    (he : e.val = t.val / 25 * 1024 + r.val) :
    (iblk1 V c 1 t : Vec Ideal S1024x1 .i32) (ix2 r (0 : Fin 1)) = V c main_v33 (ix2 e (0 : Fin 1))
      ∧ (iblk1 V c 2 t : Vec Ideal S1024x1 .f32) (ix2 r (0 : Fin 1)) = V c main_v37 (ix2 e (0 : Fin 1)) := by
  have h : win1_3.index t 0 * 1024 + 1 * r.val = e.val := by rw [(val1_index t).2.2, he]; omega
  exact ⟨congrArg (V c main_v33) (Shape.idx_ext₂ h rfl),
    congrArg (V c main_v37) (Shape.idx_ext₂ h rfl)⟩

-- By induction on the point: over zeros where n % 25 = 0, else over the point before; each point adds one block of 2000 terms.
theorem val1_acc (c : Dev nD) (r : Fin 1024) (q : Fin 256) (n : ℕ) : ∀ (h : n < cfg1.N) (e : Fin 850944),
    e.val = n / 25 * 1024 + r.val →
    acc1 V c n h (ix2 r q)
      = ∑ m ∈ Finset.range ((n % 25 + 1) * 2000),
          ohTerm (V c main_v38) (V c main_v33 (ix2 e (0 : Fin 1))) q m := by
  induction n using Nat.strong_induction_on with
  | _ n ih =>
    intro h e he
    obtain ⟨v18, hv, h18⟩ : ∃ v18 : Vec Ideal S1024x256 .f32,
        acc1 V c n h = k1_pay2 (grid1.coords ⟨n, h⟩) (iblk1 V c 1 ⟨n, h⟩) (iblk1 V c 0 ⟨n, h⟩) v18
          ∧ v18 (ix2 r q) = ∑ m ∈ Finset.range (n % 25 * 2000), ohTerm (V c main_v38) (V c main_v33 (ix2 e (0 : Fin 1))) q m := by
      by_cases h0 : n % 25 = 0
      · exact ⟨_, acc1_start V c ⟨n, h⟩ h0, by rw [k1_pay1_apply, h0, Nat.zero_mul, Finset.sum_range_zero]⟩
      · exact ⟨_, acc1_step V c ⟨n, h⟩ h0,
          by rw [ih (n - 1) (by omega) _ e (by omega), show (n - 1) % 25 + 1 = n % 25 from by omega]⟩
    rw [hv, k1_pay2_apply, (val1_index ⟨n, h⟩).1, (val1_iblk_12 V c ⟨n, h⟩ r e he).1, h18,
      ← sum_ohTerm_succ _ _ q (n % 25) (Nat.mod_lt n (by decide))]
    exact congrArg _ (Finset.sum_congr rfl fun j _ => by
      rw [val1_iblk_0 V c ⟨n, h⟩ j q ⟨n % 25 * 2000 + j.val, by omega⟩ rfl])

-- At t % 25 = 24 the accumulator holds all 25 blocks, the whole one-hot row sum, and the payload scales it by the weight.
theorem val1_flushed (c : Dev nD) (t : Fin cfg1.N) (hf : (cfg1.win 3).flush t = true) :
    (dat1 V c).flushed 3 t
      = ((cfg1.win 3).blk t).view.read (Elt Ideal)
          (gatherSum (V c main_v38) (V c main_v33) (V c main_v37)) := by
  have h24 : t.val % 25 = 24 := (val1_flush_3_iff t).mp hf
  have ht : t.val < 20775 := N_1 ▸ t.isLt
  show (cfg1.win 3).cut (grid1.coords t) ((dat1 V c).after 3 t) = _
  rw [after1_3]
  funext j
  obtain ⟨r, q, rfl⟩ : ∃ (r : Fin 1024) (q : Fin 256), j = ix2 r q := ⟨j 0, j 1, eq_ix2 j⟩
  obtain ⟨e, he⟩ : ∃ e : Fin 850944, e.val = t.val / 25 * 1024 + r.val := ⟨⟨_, by omega⟩, rfl⟩
  have hemb : ((cfg1.win 3).blk t).view.emb (ix2 r q) = (ix2 e q : (⟨2, ![850944, 256]⟩ : Shape).Idx) :=
    Shape.idx_ext₂ (by show win1_3.index t 0 * 1024 + 1 * r.val = e.val; rw [(val1_index t).2.2, he]; omega)
      (by show 0 * 256 + 1 * q.val = q.val; omega)
  rw [View.read_apply, hemb]
  refine (k1_pay3_apply (iblk1 V c 2 t) (acc1 V c t.val t.isLt) r q).trans ?_
  rw [val1_acc V c r q t.val t.isLt e he, (val1_iblk_12 V c t r e he).2, h24, sum_ohTerm_full]
  rfl

-- Row e lies in the block of point (e / 1024) · 25 + 24.
theorem val1_cover (i : S850944x256.Idx) :
    ∃ t : Fin cfg1.N, (cfg1.win 3).flush t = true ∧ i ∈ ((cfg1.win 3).blk t).view.set := by
  have h0 : (i 0).val < 850944 := (i 0).isLt
  have h1 : (i 1).val < 256 := (i 1).isLt
  obtain ⟨t, ht⟩ : ∃ t : Fin cfg1.N, t.val = (i 0).val / 1024 * 25 + 24 :=
    ⟨⟨_, by rw [show cfg1.N = 20775 from N_1]; omega⟩, rfl⟩
  refine ⟨t, (val1_flush_3_iff t).mpr (by omega), ?_⟩
  show i ∈ ((View.whole main_v39).slice (win1_3.rect t)).set
  rw [View.set_slice_whole, Rect.mem_set_unit]
  refine Fin.forall_fin_two.mpr ⟨?_, ?_⟩
  · show win1_3.index t 0 * 1024 ≤ (i 0).val ∧ (i 0).val < win1_3.index t 0 * 1024 + 1024
    rw [(val1_index t).2.2, ht]
    omega
  · show 0 * 256 ≤ (i 1).val ∧ (i 1).val < 0 * 256 + 256
    omega

-- The 831 blocks of the messages cover them: region 1 ends with the messages in its output array.
theorem arr1 (c : Dev nD) :
    (dat1 (F := Ideal) V c).arrAt 3 cfg1.N
      = gatherSum (V c main_v38 : Arr 50000 256) (V c main_v33 : Tab 850944 1) (V c main_v37 : Arr 850944 1) :=
  (dat1 V c).arrAt_eq_of_cover 3 _ (fun t hf => val1_flushed V c t hf) val1_cover

end Cert.KernelIdeal.Hand

end
-- ==== Proof.KI.Rect2.lean ====
import proofs.«110469_j83107617177903_1_alg».proof.KernelIdeal
import Idealize.ShloMosaic.Lib.ValueIdx
import Idealize.ShloMosaic.PureOps.Ideal.Laws

noncomputable section

namespace Cert.KernelIdeal.Hand

open Cert.KernelIdeal
open Idealize.ShloMosaic Idealize.ShloMosaic.ValueIdx

-- The maximum with the all-zero array, at an entry whose value is y, is max y 0.
theorem rect2_apply (x : FVec Ideal S2000x256 .f32) (y : EReal) (p : Fin 2000) (q : Fin 256) (h : x (ix2 p q) = y) :
    maximumf x (broadcast S2000x256 (Scalar.ofBits (F := Ideal) .f32 0x00000000#32)) (ix2 p q) = max y 0 := by
  subst h
  exact congrArg (max _) Ideal.ofBits_zero_f32

end Cert.KernelIdeal.Hand

end
-- ==== Proof.KI.Val2.lean ====
import proofs.«110469_j83107617177903_1_alg».proof.Proof.Spec
import proofs.«110469_j83107617177903_1_alg».proof.Proof.KI.Data2
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«110469_j83107617177903_1_alg».proof.Proof.KI.Rect2

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- The compare bit, widened to a word and converted signed, is the indicator of a = b.
theorem onehot2 (a b : BitVec 32) :
    (FloatOps.sitofp (F := Ideal) .f32 ((IntOp.cmpi .eq a b).setWidth 32) : EReal) = Cert.Spec.oh a b := by
  show (((((IntOp.cmpi .eq a b).setWidth 32).toInt : ℤ) : ℝ) : EReal) = _
  rw [toInt_setWidth_bit]
  unfold Cert.Spec.oh IntOp.cmpi
  by_cases h : a = b
  · subst h; simp
  · rw [if_neg h]
    have : (a == b) = false := by simpa using h
    simp [this]

-- Into zeros the product is, at (p, q), the sum over the 1024 edges r of lhs (r, p) · rhs (r, q).
theorem matmul2_apply (lhs : FVec Ideal S1024x2000 .bf16) (rhs : FVec Ideal S1024x256 .bf16) (p : Fin 2000) (q : Fin 256) :
    matmul dot_S1024x2000_S1024x256_S2000x256_0_0_1_1_n_n none lhs rhs (constant (F := Ideal) S2000x256 .f32 0x00000000#32) (ix2 p q)
      = ∑ r : Fin 1024, lhs (ix2 r p) * rhs (ix2 r q) := by
  show FloatOps.matmul _ none lhs rhs _ (ix2 p q) = _
  rw [Ideal.matmul_constant_zero_apply, ← Equiv.sum_comp (contrEquiv1 dot_S1024x2000_S1024x256_S2000x256_0_0_1_1_n_n 1024 rfl rfl).symm]
  refine Finset.sum_congr rfl fun r _ => ?_
  have cr := contrEquiv1_symm_val dot_S1024x2000_S1024x256_S2000x256_0_0_1_1_n_n 1024 rfl rfl r
  congr 2 <;> funext ax <;> apply Fin.ext <;> match ax with
    | ⟨0, _⟩ => simp [DotDims.lhsIdx, DotDims.rhsIdx, dot_S1024x2000_S1024x256_S2000x256_0_0_1_1_n_n]; exact cr
    | ⟨1, _⟩ => simp [DotDims.lhsIdx, DotDims.rhsIdx, dot_S1024x2000_S1024x256_S2000x256_0_0_1_1_n_n]; rfl

theorem zero2_apply (p : Fin 2000) (q : Fin 256) : (k2_pay1 (F := Ideal)) (ix2 p q) = 0 := by
  unfold k2_pay1
  simp only [shapeCast_self]
  exact Ideal.ofBits_zero_f32

-- One point adds, at node lane p and feature q, the messages (r, q) of the block's edges r whose destination word is node n·2000 + p.
theorem update2_apply (i : grid2.Coords) (dst : Vec Ideal S1024x1 .i32) (msg : Vec Ideal S1024x256 .bf16) (acc : Vec Ideal S2000x256 .f32)
    (p : Fin 2000) (q : Fin 256) :
    k2_pay2 i dst msg acc (ix2 p q)
      = acc (ix2 p q) + ∑ r : Fin 1024, Cert.Spec.oh (BitVec.ofNat 32 ((i 0).val * 2000 + p.val)) (dst (ix2 r 0)) * msg (ix2 r q) := by
  unfold k2_pay2
  simp only [shapeCast_self]
  refine (addf_apply _ _ _).trans (congrArg (acc (ix2 p q) + ·) ((matmul2_apply _ _ p q).trans
    (Finset.sum_congr rfl fun r _ => congrArg (· * msg (ix2 r q)) ?_)))
  show FloatOps.sitofp (F := Ideal) .f32 ((IntOp.cmpi .eq (broadcastTo _ _ _ _) (broadcastTo _ _ _ _)).setWidth 32) = _
  rw [broadcastTo_1b_ab_apply, broadcastTo_apply dst _ _ (ix2 r (0 : Fin 1)) fun a => match a with | ⟨0, _⟩ => rfl | ⟨1, _⟩ => rfl,
    onehot2]
  show Cert.Spec.oh (IntOp.addi (Scalar.muli _ 2000#32) (iota _ _ _ _ _ _)) _ = _
  rw [iota_single_apply, BitVec.ofNat_add, BitVec.ofNat_mul]
  rfl

-- The emitted block is the accumulator plus the bias row, rectified.
theorem emit2_apply (acc : Vec Ideal S2000x256 .f32) (b : Vec Ideal S1x256 .f32) (p : Fin 2000) (q : Fin 256) (y : EReal)
    (hy : acc (ix2 p q) + b (ix2 0 q) = y) :
    k2_pay3 acc b (ix2 p q) = max y 0 := by
  unfold k2_pay3
  simp only [shapeCast_self]; refine rect2_apply _ y p q ?_
  exact (congrArg (acc (ix2 p q) + ·) (broadcastTo_1b_ab_apply b _ p q)).trans hy

-- Grid point t has node-block coordinate t / 831 and edge-block coordinate t % 831.
theorem coords2_0 (t : Fin grid2.N) : ((grid2.coords t) 0).val = t.val / 831 := by
  have ht : t.val < 20775 := N_2 ▸ t.isLt
  show t.val / grid2.stride 0 % 25 = _
  rw [show grid2.stride 0 = 831 from by decide]
  omega

theorem coords2_1 (t : Fin grid2.N) : ((grid2.coords t) 1).val = t.val % 831 := by
  show t.val / grid2.stride 1 % 831 = _
  rw [show grid2.stride 1 = 1 from by decide, Nat.div_one]

-- The block index of the messages and of the destinations is the edge block, that of the output the node block.
theorem index2_0_0 (t : Fin grid2.N) : win2_0.index t 0 = t.val % 831 ∧ win2_1.index t 0 = t.val % 831 := by
  have h : (BitVec.ofNat 32 ((grid2.coords t) 1).val).toNat = t.val % 831 := by
    rw [BitVec.toNat_ofNat, coords2_1]; omega
  exact ⟨h, h⟩

theorem index2_3_0 (t : Fin grid2.N) : win2_3.index t 0 = t.val / 831 := by
  have ht : t.val < 20775 := N_2 ▸ t.isLt
  show (BitVec.ofNat 32 ((grid2.coords t) 0).val).toNat = _
  rw [BitVec.toNat_ofNat, coords2_0]
  omega

theorem index2_3 (t : Fin grid2.N) : win2_3.index t = ![t.val / 831, 0] :=
  funext fun a => match a with
    | ⟨0, _⟩ => index2_3_0 t
    | ⟨1, _⟩ => rfl

-- The output's block index changes, or the grid ends, exactly after the points where the edge axis ends.
theorem flush2_3_iff (t : Fin cfg2.N) : (cfg2.win 3).flush t = true ↔ t.val % 831 = 830 := by
  have ht : t.val < 20775 := N_2 ▸ t.isLt
  show (true && (decide (t.val + 1 = grid2.N) || decide (∃ h : t.val + 1 < grid2.N, win2_3.index ⟨t.val + 1, h⟩ ≠ win2_3.index t))) = true ↔ _
  simp only [Bool.true_and, Bool.or_eq_true, decide_eq_true_eq, index2_3, N_2, ne_eq, Matrix.vecCons_inj, and_true, exists_prop]
  omega

variable (V : (c : Dev nD) → (b : Ref sig .tc) → Buf (Elt Ideal) ((c : Thread nD τ).loc b))

abbrev msgA2 (c : Dev nD) : Cert.Spec.Arr 850944 256 := V c main_v39
abbrev dstA2 (c : Dev nD) : Cert.Spec.Tab 850944 1 := V c main_v35
abbrev biasA2 (c : Dev nD) : Cert.Spec.Arr 1 256 := V c main_v40

-- Row r of the blocks read at point t is row (t % 831)·1024 + r of the arrays; the bias block is the bias row.
theorem iblk2_0_apply (c : Dev nD) (t : Fin cfg2.N) (r : Fin 1024) (q : Fin 256) (e : Fin 850944)
    (he : e.val = t.val % 831 * 1024 + r.val) :
    (iblk2 V c 0 t : Vec Ideal S1024x256 .bf16) (ix2 r q) = msgA2 V c (ix2 e q) := by
  unfold iblk2
  rw [View.read_apply]
  exact congrArg (V c main_v39) (Shape.idx_ext₂
    (by show win2_0.index t 0 * 1024 + 1 * r.val = e.val; rw [(index2_0_0 t).1, he]; omega)
    (by show 0 * 256 + 1 * q.val = q.val; omega))

theorem iblk2_1_apply (c : Dev nD) (t : Fin cfg2.N) (r : Fin 1024) (e : Fin 850944)
    (he : e.val = t.val % 831 * 1024 + r.val) :
    (iblk2 V c 1 t : Vec Ideal S1024x1 .i32) (ix2 r 0) = dstA2 V c (ix2 e 0) := by
  unfold iblk2
  rw [View.read_apply]
  exact congrArg (V c main_v35) (Shape.idx_ext₂
    (by show win2_1.index t 0 * 1024 + 1 * r.val = e.val; rw [(index2_0_0 t).2, he]; omega) rfl)

theorem iblk2_2_apply (c : Dev nD) (t : Fin cfg2.N) (q : Fin 256) :
    (iblk2 V c 2 t : Vec Ideal S1x256 .f32) (ix2 0 q) = biasA2 V c (ix2 0 q) := by
  unfold iblk2
  rw [View.read_apply]
  exact congrArg (V c main_v40) (Shape.idx_ext₂ rfl (by show 0 * 256 + 1 * q.val = q.val; omega))

-- Edge slot e's contribution to node d at feature q: [d = destination of e] · message (e, q); zero past the array.
def term2 (dstT : Cert.Spec.Tab 850944 1) (msg : Cert.Spec.Arr 850944 256) (d : ℕ) (q : Fin 256) (e : ℕ) : EReal :=
  if h : e < 850944 then Cert.Spec.oh (BitVec.ofNat 32 d) (dstT (ix2 ⟨e, h⟩ 0)) * msg (ix2 ⟨e, h⟩ q) else 0

-- A point appends its block's 1024 edge slots to the contributions the accumulator holds.
theorem step2_apply (c : Dev nD) (n : ℕ) (h : n < cfg2.N) (acc : Vec Ideal S2000x256 .f32) (p : Fin 2000) (q : Fin 256)
    (hacc : acc (ix2 p q) = ∑ e ∈ Finset.range (n % 831 * 1024), term2 (dstA2 V c) (msgA2 V c) (n / 831 * 2000 + p.val) q e) :
    k2_pay2 (grid2.coords ⟨n, h⟩) (iblk2 V c 1 ⟨n, h⟩) (iblk2 V c 0 ⟨n, h⟩) acc (ix2 p q)
      = ∑ e ∈ Finset.range ((n % 831 + 1) * 1024), term2 (dstA2 V c) (msgA2 V c) (n / 831 * 2000 + p.val) q e := by
  rw [update2_apply, hacc, Nat.add_mul, Nat.one_mul, Finset.sum_range_add, coords2_0]
  refine congrArg (_ + ·) ?_
  rw [Finset.sum_range]
  refine Finset.sum_congr rfl fun r _ => ?_
  have hlt : n % 831 * 1024 + r.val < 850944 := by have := r.isLt; omega
  rw [term2, dif_pos hlt, iblk2_1_apply V c ⟨n, h⟩ r ⟨_, hlt⟩ rfl, iblk2_0_apply V c ⟨n, h⟩ r q ⟨_, hlt⟩ rfl]

-- After point n the accumulator holds the contributions of the first (n % 831 + 1)·1024 edge slots to node (n / 831)·2000 + p.
theorem acc2_closed (c : Dev nD) : ∀ (n : ℕ) (h : n < cfg2.N) (p : Fin 2000) (q : Fin 256),
    acc2 V c n h (ix2 p q)
      = ∑ e ∈ Finset.range ((n % 831 + 1) * 1024), term2 (dstA2 V c) (msgA2 V c) (n / 831 * 2000 + p.val) q e
  | 0, h, p, q => step2_apply V c 0 h _ p q ((zero2_apply p q).trans (Finset.sum_range_zero _).symm)
  | n + 1, h, p, q => by
    rw [acc2]
    refine step2_apply V c (n + 1) h _ p q ?_
    split <;> rename_i hz
    · rw [hz, Nat.zero_mul, Finset.sum_range_zero]; exact zero2_apply p q
    · rw [acc2_closed c n _ p q, show (n + 1) / 831 = n / 831 by omega, show (n + 1) % 831 = n % 831 + 1 by omega]

-- Where the edge axis ends the accumulator has run through all 850944 edge slots.
theorem emitted2_apply (c : Dev nD) (t : Fin cfg2.N) (h830 : t.val % 831 = 830) (p : Fin 2000) (q : Fin 256) (d : Fin 50000)
    (hd : d.val = t.val / 831 * 2000 + p.val) :
    k2_pay3 (acc2 V c t.val t.isLt) (iblk2 V c 2 t) (ix2 p q)
      = Cert.Spec.relu (Cert.Spec.scatterSum (msgA2 V c) (dstA2 V c) (biasA2 V c)) (ix2 d q) := by
  refine emit2_apply _ _ p q _ ((congrArg₂ (· + ·) ?_ (iblk2_2_apply V c t q)).trans
    (Cert.Spec.scatterSum_apply (msgA2 V c) (dstA2 V c) (biasA2 V c) d q).symm)
  rw [acc2_closed, h830, ← hd, show (830 + 1) * 1024 = 850944 from rfl, Finset.sum_range]
  exact Finset.sum_congr rfl fun e _ => dif_pos e.isLt

-- Where the edge axis ends the emitted block is the point's block of any array whose rows (t / 831)·2000 + p are its rows p.
theorem flushed2_eq_of (c : Dev nD) (G : S50000x256.Idx → EReal)
    (hG : ∀ (t : Fin cfg2.N) (p : Fin 2000) (q : Fin 256) (d : Fin 50000), t.val % 831 = 830 →
      d.val = t.val / 831 * 2000 + p.val → k2_pay3 (acc2 V c t.val t.isLt) (iblk2 V c 2 t) (ix2 p q) = G (ix2 d q))
    (t : Fin cfg2.N) (hf : (cfg2.win 3).flush t = true) :
    (dat2 V c).flushed 3 t = ((cfg2.win 3).blk t).view.read (Elt Ideal) G := by
  have h830 := (flush2_3_iff t).mp hf
  have hN : grid2.N = 20775 := N_2
  have ht : t.val < 20775 := hN ▸ t.isLt
  funext y
  have hy0 : (y 0).val < 2000 := (y 0).isLt
  have hy1 : (y 1).val < 256 := (y 1).isLt
  have hd : t.val / 831 * 2000 + (y 0).val < 50000 := by omega
  rw [View.read_apply]
  show (dat2 V c).after 3 t ((cfg2.win 3).xinj (cfg2.grid.coords t) y) = G (((cfg2.win 3).blk t).view.emb y)
  rw [after2_3]
  have ex : (cfg2.win 3).xinj (cfg2.grid.coords t) y = ix2 (⟨(y 0).val, hy0⟩ : Fin 2000) (⟨(y 1).val, hy1⟩ : Fin 256) := by
    funext a
    match a with
    | ⟨0, _⟩ => rfl
    | ⟨1, _⟩ => rfl
  refine (congrArg (k2_pay3 (acc2 V c t.val t.isLt) (iblk2 V c 2 t)) ex).trans ?_
  refine (hG t ⟨(y 0).val, hy0⟩ ⟨(y 1).val, hy1⟩ ⟨t.val / 831 * 2000 + (y 0).val, hd⟩ h830 rfl).trans ?_
  refine congrArg G ?_
  funext a
  apply Fin.ext
  match a with
  | ⟨0, _⟩ =>
    show t.val / 831 * 2000 + (y 0).val = win2_3.index t 0 * 2000 + 1 * (y 0).val
    rw [index2_3_0]; omega
  | ⟨1, _⟩ =>
    show (y 1).val = win2_3.index t 1 * 256 + 1 * (y 1).val
    show (y 1).val = 0 * 256 + 1 * (y 1).val
    omega

-- Row d lies in the block of point (d / 2000)·831 + 830, where the edge axis ends.
theorem cover2 (i : S50000x256.Idx) :
    ∃ t : Fin cfg2.N, (cfg2.win 3).flush t = true ∧ i ∈ ((cfg2.win 3).blk t).view.set := by
  have h0 : (i 0).val < 50000 := (i 0).isLt
  have h1 : (i 1).val < 256 := (i 1).isLt
  have htl : (i 0).val / 2000 * 831 + 830 < grid2.N := by rw [N_2]; omega
  refine ⟨⟨_, htl⟩, (flush2_3_iff _).mpr (by show ((i 0).val / 2000 * 831 + 830) % 831 = 830; omega), ?_⟩
  show i ∈ ((View.whole main_v41).slice (win2_3.rect ⟨_, htl⟩)).set
  rw [View.set_slice_whole, Rect.mem_set_unit]
  intro a
  match a with
  | ⟨0, _⟩ =>
    show win2_3.index ⟨_, htl⟩ 0 * 2000 ≤ (i 0).val ∧ (i 0).val < win2_3.index ⟨_, htl⟩ 0 * 2000 + 2000
    simp only [index2_3_0]
    omega
  | ⟨1, _⟩ => show 0 * 256 ≤ (i 1).val ∧ (i 1).val < 0 * 256 + 256; omega

-- Those blocks cover the 50000 rows: the final array is the array the emitted blocks are the blocks of.
theorem arr2 (c : Dev nD) :
    (dat2 V c).arrAt 3 cfg2.N = Cert.Spec.relu (Cert.Spec.scatterSum (V c main_v39) (V c main_v35) (V c main_v40)) :=
  (dat2 V c).arrAt_eq_of_cover 3 _ (flushed2_eq_of V c _ fun t p q d h830 hd => emitted2_apply V c t h830 p q d hd) cover2

end Cert.KernelIdeal.Hand

end
-- ==== Proof.KI.Val3.lean ====
import proofs.«110469_j83107617177903_1_alg».proof.Proof.KI.Data3
import proofs.«110469_j83107617177903_1_alg».proof.Proof.KI.GatherLib

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Gather

-- The changes of format are the identity on the extended reals, so the body is the plain product into zeros.
theorem k3_pay1_apply (x : FVec Ideal S2000x256 .f32) (W : FVec Ideal S256x128 .f32) (p : Fin 2000) (q : Fin 128) :
    k3_pay1 (F := Ideal) x W (ix2 p q) = ∑ k : Fin 256, x (ix2 p k) * W (ix2 k q) := by
  unfold k3_pay1; simp only [shapeCast_self]
  exact matmul_plain_apply _ _ _ (truncf .bf16 _ bitsLt_bf16_f32) (truncf .bf16 W bitsLt_bf16_f32) p q

-- The grid has 25 points; checked at each.
theorem idx3 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)

variable (V : (c : Dev nD) → (b : Ref sig .tc) → Buf (Elt Ideal) ((c : Thread nD τ).loc b))

-- The left block and the output tile have the same block row and the right block is the whole right factor, so the two sums agree term by term.
theorem flushed3_2_eq (c : Dev nD) (t : Fin cfg3.N) :
    (dat3 V c).flushed 2 t
      = ((cfg3.win 2).blk t).view.read (Elt Ideal) (Cert.Spec.proj (V c main_v41) (V c main_arg4)) := by
  show (cfg3.win 2).cut (grid3.coords t) ((dat3 V c).after 2 t) = _
  rw [after3_2]
  refine funext fun (y : S2000x128.Idx) => ?_
  obtain ⟨p, q, rfl⟩ : ∃ (p : Fin 2000) (q : Fin 128), y = ix2 p q := ⟨y 0, y 1, eq_ix2 y⟩
  refine (k3_pay1_apply (iblk3 V c 0 t) (iblk3 V c 1 t) p q).trans ?_
  show _ = Cert.Spec.proj (V c main_v41) (V c main_arg4) (((cfg3.win 2).blk t).view.emb (ix2 p q))
  unfold Cert.Spec.proj
  refine Finset.sum_congr rfl fun k _ => congrArg₂ (· * ·) ?_ ?_
  · exact congrArg (V c main_v41) (Shape.idx_ext₂ rfl (by show 0 * 256 + 1 * k.val = k.val; omega))
  · exact congrArg (V c main_arg4) (Shape.idx_ext₂ (by show 0 * 256 + 1 * k.val = k.val; omega) rfl)

-- The block row at t + 1 is t + 1, not t.
theorem flushes3_2 (t : Fin cfg3.N) : (cfg3.win 2).flush t = true :=
  (flush_iff win3_2 rfl t).mpr ((Nat.lt_or_ge (t.val + 1) grid3.N).symm.imp (fun h => Nat.le_antisymm t.isLt h)
    fun h => ⟨h, fun e => absurd ((idx3 ⟨t.val + 1, h⟩).1.symm.trans ((congrFun e 0).trans (idx3 t).1)) (Nat.succ_ne_self _)⟩)

-- Row r lies in tile r / 2000, whose block row is r / 2000 and block column 0.
theorem rows_cover3_2 (i : S50000x128.Idx) :
    ∃ t : Fin cfg3.N, (cfg3.win 2).flush t = true ∧ i ∈ ((cfg3.win 2).blk t).view.set := by
  have h0 : (i 0).val < 50000 := idx2_lt0 i
  have h1 : (i 1).val < 128 := idx2_lt1 i
  obtain ⟨t, ht⟩ : ∃ t : Fin cfg3.N, t.val = (i 0).val / 2000 := ⟨⟨_, by rw [show cfg3.N = 25 from N_3]; omega⟩, rfl⟩
  obtain ⟨e0, e1⟩ := idx3 t
  refine ⟨t, flushes3_2 t, ?_⟩
  show i ∈ ((View.whole main_v42).slice (win3_2.rect t)).set
  rw [View.set_slice_whole, Rect.mem_set_unit]
  refine Fin.forall_fin_two.mpr ⟨?_, ?_⟩
  · show win3_2.index t (0 : Fin 2) * 2000 ≤ (i 0).val ∧ (i 0).val < win3_2.index t (0 : Fin 2) * 2000 + 2000
    rw [e0, ht]
    omega
  · show win3_2.index t (1 : Fin 2) * 128 ≤ (i 1).val ∧ (i 1).val < win3_2.index t (1 : Fin 2) * 128 + 128
    rw [e1]
    omega

-- The 25 tiles of the projection cover it: region 3 ends with the projection in its result array.
theorem arr3 (c : Dev nD) :
    (dat3 V c).arrAt 2 cfg3.N = Cert.Spec.proj (V c main_v41) (V c main_arg4) :=
  (dat3 V c).arrAt_eq_of_cover 2 (Cert.Spec.proj (V c main_v41) (V c main_arg4))
    (fun t _ => flushed3_2_eq V c t) rows_cover3_2

end Cert.KernelIdeal.Hand

end
-- ==== Proof.KI.Val4Pay.lean ====
import proofs.«110469_j83107617177903_1_alg».proof.Proof.Gen.KernelIdeal.Skeleton
import proofs.«110469_j83107617177903_1_alg».proof.Proof.KI.GatherLib

noncomputable section

namespace Cert.KernelIdeal.Hand

open Cert.KernelIdeal Cert.KernelIdeal.Gen
open Idealize.ShloMosaic Idealize.ShloMosaic.ValueIdx
open Cert.Spec Cert.Gather

-- The word 0 denotes the number 0.
theorem k4_pay1_apply (r : Fin 1024) (q : Fin 128) : (k4_pay1 (F := Ideal)) (ix2 r q) = 0 := by
  unfold k4_pay1
  rw [shapeCast_self]
  exact Ideal.ofBits_zero_f32

-- Column j of the compared words is the word of i 1 · 2000 + j (the word of a natural is a ring map) against the source word of row r; the product sums them over j.
theorem k4_pay2_apply (i : grid4.Coords) (v7 : Vec Ideal S1024x1 .i32) (v15 : Vec Ideal S2000x128 .bf16)
    (v18 : Vec Ideal S1024x128 .f32) (r : Fin 1024) (q : Fin 128) :
    k4_pay2 i v7 v15 v18 (ix2 r q)
      = v18 (ix2 r q) + ∑ j : Fin 2000, oh (BitVec.ofNat 32 ((i 1).val * 2000 + j.val)) (v7 (ix2 r (0 : Fin 1))) * v15 (ix2 j q) := by
  unfold k4_pay2
  rw [shapeCast_self, shapeCast_self, shapeCast_self]
  show v18 (ix2 r q) + FloatOps.matmul (F := Ideal) (DotDims.plain 1024 2000 128) none _ v15 (constant _ .f32 0x00000000#32) (ix2 r q) = _
  rw [matmul_plain_apply]
  congr 1
  refine Finset.sum_congr rfl fun j _ => ?_
  congr 1
  refine (onehot_word _ _).trans (congrArg₂ oh ?_ ?_)
  · rw [broadcastTo_apply _ broadcasts_S1x2000_S1024x2000 (ix2 r j) (ix2 (0 : Fin 1) j) (Fin.forall_fin_two.mpr ⟨rfl, rfl⟩)]
    show BitVec.ofNat 32 (i 1).val * BitVec.ofNat 32 2000 + iota .tc S1x2000 32 [1] iota_S1x2000_d1_w32 (ix2 (0 : Fin 1) j) = _
    rw [iota_single_apply, ← BitVec.ofNat_mul, ← BitVec.ofNat_add]
  · exact broadcastTo_apply v7 broadcasts_S1024x1_S1024x2000 (ix2 r j) (ix2 r (0 : Fin 1)) (Fin.forall_fin_two.mpr ⟨rfl, rfl⟩)

-- The weight column spread along the row reads the weight of row r at every q.
theorem k4_pay3_apply (v26 : Vec Ideal S1024x1 .f32) (v28 : Vec Ideal S1024x128 .f32) (r : Fin 1024) (q : Fin 128) :
    k4_pay3 v26 v28 (ix2 r q) = v28 (ix2 r q) * v26 (ix2 r (0 : Fin 1)) := by
  unfold k4_pay3
  rw [shapeCast_self]
  exact congrArg (v28 (ix2 r q) * ·)
    (broadcastTo_apply v26 broadcasts_S1024x1_S1024x128 (ix2 r q) (ix2 r (0 : Fin 1)) (Fin.forall_fin_two.mpr ⟨rfl, rfl⟩))

end Cert.KernelIdeal.Hand

end
-- ==== Proof.KI.Val4.lean ====
import proofs.«110469_j83107617177903_1_alg».proof.Proof.KI.Data4
import proofs.«110469_j83107617177903_1_alg».proof.Proof.KI.Val4Pay

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec Cert.Gather

variable (V : (c : Dev nD) → (b : Ref sig .tc) → Buf (Elt Ideal) ((c : Thread nD τ).loc b))

-- The strides of the 831 × 25 grid are 25 and 1, and a coordinate's word is the coordinate: it is below 2³².
theorem val4_index (t : Fin grid4.N) :
    (grid4.coords t 1).val = t.val % 25 ∧ win4_0.index t 0 = t.val % 25 ∧ win4_3.index t 0 = t.val / 25 := by
  have ht : t.val < 20775 := N_4 ▸ t.isLt
  refine ⟨?_, ?_, ?_⟩
  · show t.val / 1 % 25 = _; omega
  · show (BitVec.ofNat 32 (t.val / 1 % 25)).toNat = _; rw [BitVec.toNat_ofNat]; omega
  · show (BitVec.ofNat 32 (t.val / 25 % 831)).toNat = _; rw [BitVec.toNat_ofNat]; omega

-- The block row t / 25 changes after t exactly when t % 25 = 24, and the last point 20774 is such a t.
theorem val4_flush_3_iff (t : Fin cfg4.N) : (cfg4.win 3).flush t = true ↔ t.val % 25 = 24 := by
  have hN : grid4.N = 20775 := N_4
  have ht : t.val < 20775 := hN ▸ t.isLt
  have hi : ∀ h : t.val + 1 < grid4.N, win4_3.index ⟨t.val + 1, h⟩ 0 = win4_3.index t 0 ↔ (t.val + 1) / 25 = t.val / 25 :=
    fun h => by rw [(val4_index _).2.2, (val4_index t).2.2]
  refine (flush_iff win4_3 rfl t).trans ⟨?_, fun h24 => ?_⟩
  · rintro (h | ⟨h, hne⟩)
    · omega
    · by_contra h24
      exact hne (funext (Fin.forall_fin_two.mpr ⟨(hi h).mpr (by omega), rfl⟩))
  · exact (Nat.lt_or_ge (t.val + 1) grid4.N).symm.imp (by omega)
      fun h => ⟨h, fun e => absurd ((hi h).mp (congrFun e 0)) (by omega)⟩

-- The table's block at t starts at row (t % 25) · 2000, column 0.
theorem val4_iblk_0 (c : Dev nD) (t : Fin cfg4.N) (p : Fin 2000) (q : Fin 128) (k : Fin 50000)
    (hk : k.val = t.val % 25 * 2000 + p.val) :
    (iblk4 V c 0 t : Vec Ideal S2000x128 .bf16) (ix2 p q) = V c main_v42 (ix2 k q) :=
  congrArg (V c main_v42) (Shape.idx_ext₂
    (by show win4_0.index t 0 * 2000 + 1 * p.val = k.val; rw [(val4_index t).2.1, hk]; omega)
    (by show 0 * 128 + 1 * q.val = q.val; omega))

-- The two columns' blocks have the output's block row t / 25: they start at slot (t / 25) · 1024.
theorem val4_iblk_12 (c : Dev nD) (t : Fin cfg4.N) (r : Fin 1024) (e : Fin 850944)
    (he : e.val = t.val / 25 * 1024 + r.val) :
    (iblk4 V c 1 t : Vec Ideal S1024x1 .i32) (ix2 r (0 : Fin 1)) = V c main_v33 (ix2 e (0 : Fin 1))
      ∧ (iblk4 V c 2 t : Vec Ideal S1024x1 .f32) (ix2 r (0 : Fin 1)) = V c main_v37 (ix2 e (0 : Fin 1)) := by
  have h : win4_3.index t 0 * 1024 + 1 * r.val = e.val := by rw [(val4_index t).2.2, he]; omega
  exact ⟨congrArg (V c main_v33) (Shape.idx_ext₂ h rfl),
    congrArg (V c main_v37) (Shape.idx_ext₂ h rfl)⟩

-- By induction on the point: over zeros where n % 25 = 0, else over the point before; each point adds one block of 2000 terms.
theorem val4_acc (c : Dev nD) (r : Fin 1024) (q : Fin 128) (n : ℕ) : ∀ (h : n < cfg4.N) (e : Fin 850944),
    e.val = n / 25 * 1024 + r.val →
    acc4 V c n h (ix2 r q)
      = ∑ m ∈ Finset.range ((n % 25 + 1) * 2000),
          ohTerm (V c main_v42) (V c main_v33 (ix2 e (0 : Fin 1))) q m := by
  induction n using Nat.strong_induction_on with
  | _ n ih =>
    intro h e he
    obtain ⟨v18, hv, h18⟩ : ∃ v18 : Vec Ideal S1024x128 .f32,
        acc4 V c n h = k4_pay2 (grid4.coords ⟨n, h⟩) (iblk4 V c 1 ⟨n, h⟩) (iblk4 V c 0 ⟨n, h⟩) v18
          ∧ v18 (ix2 r q) = ∑ m ∈ Finset.range (n % 25 * 2000), ohTerm (V c main_v42) (V c main_v33 (ix2 e (0 : Fin 1))) q m := by
      by_cases h0 : n % 25 = 0
      · exact ⟨_, acc4_start V c ⟨n, h⟩ h0, by rw [k4_pay1_apply, h0, Nat.zero_mul, Finset.sum_range_zero]⟩
      · exact ⟨_, acc4_step V c ⟨n, h⟩ h0,
          by rw [ih (n - 1) (by omega) _ e (by omega), show (n - 1) % 25 + 1 = n % 25 from by omega]⟩
    rw [hv, k4_pay2_apply, (val4_index ⟨n, h⟩).1, (val4_iblk_12 V c ⟨n, h⟩ r e he).1, h18,
      ← sum_ohTerm_succ _ _ q (n % 25) (Nat.mod_lt n (by decide))]
    exact congrArg _ (Finset.sum_congr rfl fun j _ => by
      rw [val4_iblk_0 V c ⟨n, h⟩ j q ⟨n % 25 * 2000 + j.val, by omega⟩ rfl])

-- At t % 25 = 24 the accumulator holds all 25 blocks, the whole one-hot row sum, and the payload scales it by the weight.
theorem val4_flushed (c : Dev nD) (t : Fin cfg4.N) (hf : (cfg4.win 3).flush t = true) :
    (dat4 V c).flushed 3 t
      = ((cfg4.win 3).blk t).view.read (Elt Ideal)
          (gatherSum (V c main_v42) (V c main_v33) (V c main_v37)) := by
  have h24 : t.val % 25 = 24 := (val4_flush_3_iff t).mp hf
  have ht : t.val < 20775 := N_4 ▸ t.isLt
  show (cfg4.win 3).cut (grid4.coords t) ((dat4 V c).after 3 t) = _
  rw [after4_3]
  funext j
  obtain ⟨r, q, rfl⟩ : ∃ (r : Fin 1024) (q : Fin 128), j = ix2 r q := ⟨j 0, j 1, eq_ix2 j⟩
  obtain ⟨e, he⟩ : ∃ e : Fin 850944, e.val = t.val / 25 * 1024 + r.val := ⟨⟨_, by omega⟩, rfl⟩
  have hemb : ((cfg4.win 3).blk t).view.emb (ix2 r q) = (ix2 e q : (⟨2, ![850944, 128]⟩ : Shape).Idx) :=
    Shape.idx_ext₂ (by show win4_3.index t 0 * 1024 + 1 * r.val = e.val; rw [(val4_index t).2.2, he]; omega)
      (by show 0 * 128 + 1 * q.val = q.val; omega)
  rw [View.read_apply, hemb]
  refine (k4_pay3_apply (iblk4 V c 2 t) (acc4 V c t.val t.isLt) r q).trans ?_
  rw [val4_acc V c r q t.val t.isLt e he, (val4_iblk_12 V c t r e he).2, h24, sum_ohTerm_full]
  rfl

-- Row e lies in the block of point (e / 1024) · 25 + 24.
theorem val4_cover (i : S850944x128.Idx) :
    ∃ t : Fin cfg4.N, (cfg4.win 3).flush t = true ∧ i ∈ ((cfg4.win 3).blk t).view.set := by
  have h0 : (i 0).val < 850944 := (i 0).isLt
  have h1 : (i 1).val < 128 := (i 1).isLt
  obtain ⟨t, ht⟩ : ∃ t : Fin cfg4.N, t.val = (i 0).val / 1024 * 25 + 24 :=
    ⟨⟨_, by rw [show cfg4.N = 20775 from N_4]; omega⟩, rfl⟩
  refine ⟨t, (val4_flush_3_iff t).mpr (by omega), ?_⟩
  show i ∈ ((View.whole main_v43).slice (win4_3.rect t)).set
  rw [View.set_slice_whole, Rect.mem_set_unit]
  refine Fin.forall_fin_two.mpr ⟨?_, ?_⟩
  · show win4_3.index t 0 * 1024 ≤ (i 0).val ∧ (i 0).val < win4_3.index t 0 * 1024 + 1024
    rw [(val4_index t).2.2, ht]
    omega
  · show 0 * 128 ≤ (i 1).val ∧ (i 1).val < 0 * 128 + 128
    omega

-- The 831 blocks of the messages cover them: region 4 ends with the messages in its output array.
theorem arr4 (c : Dev nD) :
    (dat4 (F := Ideal) V c).arrAt 3 cfg4.N
      = gatherSum (V c main_v42 : Arr 50000 128) (V c main_v33 : Tab 850944 1) (V c main_v37 : Arr 850944 1) :=
  (dat4 V c).arrAt_eq_of_cover 3 _ (fun t hf => val4_flushed V c t hf) val4_cover

end Cert.KernelIdeal.Hand

end
-- ==== Proof.KI.Val5.lean ====
import proofs.«110469_j83107617177903_1_alg».proof.Proof.Spec
import proofs.«110469_j83107617177903_1_alg».proof.Proof.KI.Data5
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- The compare bit, widened to a word and converted signed, is the indicator of a = b.
theorem onehot5 (a b : BitVec 32) :
    (FloatOps.sitofp (F := Ideal) .f32 ((IntOp.cmpi .eq a b).setWidth 32) : EReal) = Cert.Spec.oh a b := by
  show (((((IntOp.cmpi .eq a b).setWidth 32).toInt : ℤ) : ℝ) : EReal) = _
  rw [toInt_setWidth_bit]
  unfold Cert.Spec.oh IntOp.cmpi
  by_cases h : a = b
  · subst h; simp
  · rw [if_neg h]
    have : (a == b) = false := by simpa using h
    simp [this]

-- Into zeros the product is, at (p, q), the sum over the 1024 edges r of lhs (r, p) · rhs (r, q).
theorem matmul5_apply (lhs : FVec Ideal S1024x2000 .bf16) (rhs : FVec Ideal S1024x128 .bf16) (p : Fin 2000) (q : Fin 128) :
    matmul dot_S1024x2000_S1024x128_S2000x128_0_0_1_1_n_n none lhs rhs (constant (F := Ideal) S2000x128 .f32 0x00000000#32) (ix2 p q)
      = ∑ r : Fin 1024, lhs (ix2 r p) * rhs (ix2 r q) := by
  show FloatOps.matmul _ none lhs rhs _ (ix2 p q) = _
  rw [Ideal.matmul_constant_zero_apply, ← Equiv.sum_comp (contrEquiv1 dot_S1024x2000_S1024x128_S2000x128_0_0_1_1_n_n 1024 rfl rfl).symm]
  refine Finset.sum_congr rfl fun r _ => ?_
  have cr := contrEquiv1_symm_val dot_S1024x2000_S1024x128_S2000x128_0_0_1_1_n_n 1024 rfl rfl r
  congr 2 <;> funext ax <;> apply Fin.ext <;> match ax with
    | ⟨0, _⟩ => simp [DotDims.lhsIdx, DotDims.rhsIdx, dot_S1024x2000_S1024x128_S2000x128_0_0_1_1_n_n]; exact cr
    | ⟨1, _⟩ => simp [DotDims.lhsIdx, DotDims.rhsIdx, dot_S1024x2000_S1024x128_S2000x128_0_0_1_1_n_n]; rfl

theorem zero5_apply (p : Fin 2000) (q : Fin 128) : (k5_pay1 (F := Ideal)) (ix2 p q) = 0 := by
  unfold k5_pay1
  simp only [shapeCast_self]
  exact Ideal.ofBits_zero_f32

-- One point adds, at node lane p and feature q, the messages (r, q) of the block's edges r whose destination word is node n·2000 + p.
theorem update5_apply (i : grid5.Coords) (dst : Vec Ideal S1024x1 .i32) (msg : Vec Ideal S1024x128 .bf16) (acc : Vec Ideal S2000x128 .f32)
    (p : Fin 2000) (q : Fin 128) :
    k5_pay2 i dst msg acc (ix2 p q)
      = acc (ix2 p q) + ∑ r : Fin 1024, Cert.Spec.oh (BitVec.ofNat 32 ((i 0).val * 2000 + p.val)) (dst (ix2 r 0)) * msg (ix2 r q) := by
  unfold k5_pay2
  simp only [shapeCast_self]
  refine (addf_apply _ _ _).trans (congrArg (acc (ix2 p q) + ·) ((matmul5_apply _ _ p q).trans
    (Finset.sum_congr rfl fun r _ => congrArg (· * msg (ix2 r q)) ?_)))
  show FloatOps.sitofp (F := Ideal) .f32 ((IntOp.cmpi .eq (broadcastTo _ _ _ _) (broadcastTo _ _ _ _)).setWidth 32) = _
  rw [broadcastTo_1b_ab_apply, broadcastTo_apply dst _ _ (ix2 r (0 : Fin 1)) fun a => match a with | ⟨0, _⟩ => rfl | ⟨1, _⟩ => rfl,
    onehot5]
  show Cert.Spec.oh (IntOp.addi (Scalar.muli _ 2000#32) (iota _ _ _ _ _ _)) _ = _
  rw [iota_single_apply, BitVec.ofNat_add, BitVec.ofNat_mul]
  rfl

-- The emitted block is the accumulator plus the bias row.
theorem emit5_apply (acc : Vec Ideal S2000x128 .f32) (b : Vec Ideal S1x128 .f32) (p : Fin 2000) (q : Fin 128) (y : EReal)
    (hy : acc (ix2 p q) + b (ix2 0 q) = y) :
    k5_pay3 acc b (ix2 p q) = y := by
  unfold k5_pay3
  simp only [shapeCast_self]
  exact (congrArg (acc (ix2 p q) + ·) (broadcastTo_1b_ab_apply b _ p q)).trans hy

-- Grid point t has node-block coordinate t / 831 and edge-block coordinate t % 831.
theorem coords5_0 (t : Fin grid5.N) : ((grid5.coords t) 0).val = t.val / 831 := by
  have ht : t.val < 20775 := N_5 ▸ t.isLt
  show t.val / grid5.stride 0 % 25 = _
  rw [show grid5.stride 0 = 831 from by decide]
  omega

theorem coords5_1 (t : Fin grid5.N) : ((grid5.coords t) 1).val = t.val % 831 := by
  show t.val / grid5.stride 1 % 831 = _
  rw [show grid5.stride 1 = 1 from by decide, Nat.div_one]

-- The block index of the messages and of the destinations is the edge block, that of the output the node block.
theorem index5_0_0 (t : Fin grid5.N) : win5_0.index t 0 = t.val % 831 ∧ win5_1.index t 0 = t.val % 831 := by
  have h : (BitVec.ofNat 32 ((grid5.coords t) 1).val).toNat = t.val % 831 := by
    rw [BitVec.toNat_ofNat, coords5_1]; omega
  exact ⟨h, h⟩

theorem index5_3_0 (t : Fin grid5.N) : win5_3.index t 0 = t.val / 831 := by
  have ht : t.val < 20775 := N_5 ▸ t.isLt
  show (BitVec.ofNat 32 ((grid5.coords t) 0).val).toNat = _
  rw [BitVec.toNat_ofNat, coords5_0]
  omega

theorem index5_3 (t : Fin grid5.N) : win5_3.index t = ![t.val / 831, 0] :=
  funext fun a => match a with
    | ⟨0, _⟩ => index5_3_0 t
    | ⟨1, _⟩ => rfl

-- The output's block index changes, or the grid ends, exactly after the points where the edge axis ends.
theorem flush5_3_iff (t : Fin cfg5.N) : (cfg5.win 3).flush t = true ↔ t.val % 831 = 830 := by
  have ht : t.val < 20775 := N_5 ▸ t.isLt
  show (true && (decide (t.val + 1 = grid5.N) || decide (∃ h : t.val + 1 < grid5.N, win5_3.index ⟨t.val + 1, h⟩ ≠ win5_3.index t))) = true ↔ _
  simp only [Bool.true_and, Bool.or_eq_true, decide_eq_true_eq, index5_3, N_5, ne_eq, Matrix.vecCons_inj, and_true, exists_prop]
  omega

variable (V : (c : Dev nD) → (b : Ref sig .tc) → Buf (Elt Ideal) ((c : Thread nD τ).loc b))

abbrev msgA5 (c : Dev nD) : Cert.Spec.Arr 850944 128 := V c main_v43
abbrev dstA5 (c : Dev nD) : Cert.Spec.Tab 850944 1 := V c main_v35
abbrev biasA5 (c : Dev nD) : Cert.Spec.Arr 1 128 := V c main_v44

-- Row r of the blocks read at point t is row (t % 831)·1024 + r of the arrays; the bias block is the bias row.
theorem iblk5_0_apply (c : Dev nD) (t : Fin cfg5.N) (r : Fin 1024) (q : Fin 128) (e : Fin 850944)
    (he : e.val = t.val % 831 * 1024 + r.val) :
    (iblk5 V c 0 t : Vec Ideal S1024x128 .bf16) (ix2 r q) = msgA5 V c (ix2 e q) := by
  unfold iblk5
  rw [View.read_apply]
  exact congrArg (V c main_v43) (Shape.idx_ext₂
    (by show win5_0.index t 0 * 1024 + 1 * r.val = e.val; rw [(index5_0_0 t).1, he]; omega)
    (by show 0 * 128 + 1 * q.val = q.val; omega))

theorem iblk5_1_apply (c : Dev nD) (t : Fin cfg5.N) (r : Fin 1024) (e : Fin 850944)
    (he : e.val = t.val % 831 * 1024 + r.val) :
    (iblk5 V c 1 t : Vec Ideal S1024x1 .i32) (ix2 r 0) = dstA5 V c (ix2 e 0) := by
  unfold iblk5
  rw [View.read_apply]
  exact congrArg (V c main_v35) (Shape.idx_ext₂
    (by show win5_1.index t 0 * 1024 + 1 * r.val = e.val; rw [(index5_0_0 t).2, he]; omega) rfl)

theorem iblk5_2_apply (c : Dev nD) (t : Fin cfg5.N) (q : Fin 128) :
    (iblk5 V c 2 t : Vec Ideal S1x128 .f32) (ix2 0 q) = biasA5 V c (ix2 0 q) := by
  unfold iblk5
  rw [View.read_apply]
  exact congrArg (V c main_v44) (Shape.idx_ext₂ rfl (by show 0 * 128 + 1 * q.val = q.val; omega))

-- Edge slot e's contribution to node d at feature q: [d = destination of e] · message (e, q); zero past the array.
def term5 (dstT : Cert.Spec.Tab 850944 1) (msg : Cert.Spec.Arr 850944 128) (d : ℕ) (q : Fin 128) (e : ℕ) : EReal :=
  if h : e < 850944 then Cert.Spec.oh (BitVec.ofNat 32 d) (dstT (ix2 ⟨e, h⟩ 0)) * msg (ix2 ⟨e, h⟩ q) else 0

-- A point appends its block's 1024 edge slots to the contributions the accumulator holds.
theorem step5_apply (c : Dev nD) (n : ℕ) (h : n < cfg5.N) (acc : Vec Ideal S2000x128 .f32) (p : Fin 2000) (q : Fin 128)
    (hacc : acc (ix2 p q) = ∑ e ∈ Finset.range (n % 831 * 1024), term5 (dstA5 V c) (msgA5 V c) (n / 831 * 2000 + p.val) q e) :
    k5_pay2 (grid5.coords ⟨n, h⟩) (iblk5 V c 1 ⟨n, h⟩) (iblk5 V c 0 ⟨n, h⟩) acc (ix2 p q)
      = ∑ e ∈ Finset.range ((n % 831 + 1) * 1024), term5 (dstA5 V c) (msgA5 V c) (n / 831 * 2000 + p.val) q e := by
  rw [update5_apply, hacc, Nat.add_mul, Nat.one_mul, Finset.sum_range_add, coords5_0]
  refine congrArg (_ + ·) ?_
  rw [Finset.sum_range]
  refine Finset.sum_congr rfl fun r _ => ?_
  have hlt : n % 831 * 1024 + r.val < 850944 := by have := r.isLt; omega
  rw [term5, dif_pos hlt, iblk5_1_apply V c ⟨n, h⟩ r ⟨_, hlt⟩ rfl, iblk5_0_apply V c ⟨n, h⟩ r q ⟨_, hlt⟩ rfl]

-- After point n the accumulator holds the contributions of the first (n % 831 + 1)·1024 edge slots to node (n / 831)·2000 + p.
theorem acc5_closed (c : Dev nD) : ∀ (n : ℕ) (h : n < cfg5.N) (p : Fin 2000) (q : Fin 128),
    acc5 V c n h (ix2 p q)
      = ∑ e ∈ Finset.range ((n % 831 + 1) * 1024), term5 (dstA5 V c) (msgA5 V c) (n / 831 * 2000 + p.val) q e
  | 0, h, p, q => step5_apply V c 0 h _ p q ((zero5_apply p q).trans (Finset.sum_range_zero _).symm)
  | n + 1, h, p, q => by
    rw [acc5]
    refine step5_apply V c (n + 1) h _ p q ?_
    split <;> rename_i hz
    · rw [hz, Nat.zero_mul, Finset.sum_range_zero]; exact zero5_apply p q
    · rw [acc5_closed c n _ p q, show (n + 1) / 831 = n / 831 by omega, show (n + 1) % 831 = n % 831 + 1 by omega]

-- Where the edge axis ends the accumulator has run through all 850944 edge slots.
theorem emitted5_apply (c : Dev nD) (t : Fin cfg5.N) (h830 : t.val % 831 = 830) (p : Fin 2000) (q : Fin 128) (d : Fin 50000)
    (hd : d.val = t.val / 831 * 2000 + p.val) :
    k5_pay3 (acc5 V c t.val t.isLt) (iblk5 V c 2 t) (ix2 p q)
      = (Cert.Spec.scatterSum (msgA5 V c) (dstA5 V c) (biasA5 V c)) (ix2 d q) := by
  refine emit5_apply _ _ p q _ ((congrArg₂ (· + ·) ?_ (iblk5_2_apply V c t q)).trans
    (Cert.Spec.scatterSum_apply (msgA5 V c) (dstA5 V c) (biasA5 V c) d q).symm)
  rw [acc5_closed, h830, ← hd, show (830 + 1) * 1024 = 850944 from rfl, Finset.sum_range]
  exact Finset.sum_congr rfl fun e _ => dif_pos e.isLt

-- Where the edge axis ends the emitted block is the point's block of any array whose rows (t / 831)·2000 + p are its rows p.
theorem flushed5_eq_of (c : Dev nD) (G : S50000x128.Idx → EReal)
    (hG : ∀ (t : Fin cfg5.N) (p : Fin 2000) (q : Fin 128) (d : Fin 50000), t.val % 831 = 830 →
      d.val = t.val / 831 * 2000 + p.val → k5_pay3 (acc5 V c t.val t.isLt) (iblk5 V c 2 t) (ix2 p q) = G (ix2 d q))
    (t : Fin cfg5.N) (hf : (cfg5.win 3).flush t = true) :
    (dat5 V c).flushed 3 t = ((cfg5.win 3).blk t).view.read (Elt Ideal) G := by
  have h830 := (flush5_3_iff t).mp hf
  have hN : grid5.N = 20775 := N_5
  have ht : t.val < 20775 := hN ▸ t.isLt
  funext y
  have hy0 : (y 0).val < 2000 := (y 0).isLt
  have hy1 : (y 1).val < 128 := (y 1).isLt
  have hd : t.val / 831 * 2000 + (y 0).val < 50000 := by omega
  rw [View.read_apply]
  show (dat5 V c).after 3 t ((cfg5.win 3).xinj (cfg5.grid.coords t) y) = G (((cfg5.win 3).blk t).view.emb y)
  rw [after5_3]
  have ex : (cfg5.win 3).xinj (cfg5.grid.coords t) y = ix2 (⟨(y 0).val, hy0⟩ : Fin 2000) (⟨(y 1).val, hy1⟩ : Fin 128) := by
    funext a
    match a with
    | ⟨0, _⟩ => rfl
    | ⟨1, _⟩ => rfl
  refine (congrArg (k5_pay3 (acc5 V c t.val t.isLt) (iblk5 V c 2 t)) ex).trans ?_
  refine (hG t ⟨(y 0).val, hy0⟩ ⟨(y 1).val, hy1⟩ ⟨t.val / 831 * 2000 + (y 0).val, hd⟩ h830 rfl).trans ?_
  refine congrArg G ?_
  funext a
  apply Fin.ext
  match a with
  | ⟨0, _⟩ =>
    show t.val / 831 * 2000 + (y 0).val = win5_3.index t 0 * 2000 + 1 * (y 0).val
    rw [index5_3_0]; omega
  | ⟨1, _⟩ =>
    show (y 1).val = win5_3.index t 1 * 128 + 1 * (y 1).val
    show (y 1).val = 0 * 128 + 1 * (y 1).val
    omega

-- Row d lies in the block of point (d / 2000)·831 + 830, where the edge axis ends.
theorem cover5 (i : S50000x128.Idx) :
    ∃ t : Fin cfg5.N, (cfg5.win 3).flush t = true ∧ i ∈ ((cfg5.win 3).blk t).view.set := by
  have h0 : (i 0).val < 50000 := (i 0).isLt
  have h1 : (i 1).val < 128 := (i 1).isLt
  have htl : (i 0).val / 2000 * 831 + 830 < grid5.N := by rw [N_5]; omega
  refine ⟨⟨_, htl⟩, (flush5_3_iff _).mpr (by show ((i 0).val / 2000 * 831 + 830) % 831 = 830; omega), ?_⟩
  show i ∈ ((View.whole main_v45).slice (win5_3.rect ⟨_, htl⟩)).set
  rw [View.set_slice_whole, Rect.mem_set_unit]
  intro a
  match a with
  | ⟨0, _⟩ =>
    show win5_3.index ⟨_, htl⟩ 0 * 2000 ≤ (i 0).val ∧ (i 0).val < win5_3.index ⟨_, htl⟩ 0 * 2000 + 2000
    simp only [index5_3_0]
    omega
  | ⟨1, _⟩ => show 0 * 128 ≤ (i 1).val ∧ (i 1).val < 0 * 128 + 128; omega

-- Those blocks cover the 50000 rows: the final array is the array the emitted blocks are the blocks of.
theorem arr5 (c : Dev nD) :
    (dat5 V c).arrAt 3 cfg5.N = (Cert.Spec.scatterSum (V c main_v43) (V c main_v35) (V c main_v44)) :=
  (dat5 V c).arrAt_eq_of_cover 3 _ (flushed5_eq_of V c _ fun t p q d h830 hd => emitted5_apply V c t h830 p q d hd) cover5

end Cert.KernelIdeal.Hand

end
-- ==== Proof.KI.Value.lean ====
import proofs.«110469_j83107617177903_1_alg».proof.Proof.Spec
import proofs.«110469_j83107617177903_1_alg».proof.Proof.KI.Chain
import proofs.«110469_j83107617177903_1_alg».proof.Proof.KI.Host
import proofs.«110469_j83107617177903_1_alg».proof.Proof.KI.Val0
import proofs.«110469_j83107617177903_1_alg».proof.Proof.KI.Val1
import proofs.«110469_j83107617177903_1_alg».proof.Proof.KI.Val2
import proofs.«110469_j83107617177903_1_alg».proof.Proof.KI.Val3
import proofs.«110469_j83107617177903_1_alg».proof.Proof.KI.Val4
import proofs.«110469_j83107617177903_1_alg».proof.Proof.KI.Val5

noncomputable section

namespace Cert.KernelIdeal.Hand

open Cert.KernelIdeal.Gen Cert.Spec Idealize.ShloMosaic Idealize.ShloMosaic.TcCoe

variable (m : (ℓ : Loc nD τ sig) → Buf (Elt Ideal) ℓ) (c : Dev nD)

section
variable {r : Ref sig .tc}
  (h : ∀ x ∈ ([main_v38, main_v39, main_v40, main_v41, main_v42, main_v43, main_v44] : List (Ref sig .tc)), r ≠ x)
include h

-- A reference no item from the first region on writes holds, at every later point, what it held at that region's entry.
theorem at10 : W10 m c r = W9 m c r := upd10_of m c r (h _ (by decide))
theorem at11 : W11 m c r = W9 m c r := (upd11_of m c r (h _ (by decide))).trans (at10 m c h)
theorem at12 : W12 m c r = W9 m c r :=
  (StableHlo.after_of_writes_sub hostOps2 _ hostOps2_writes fun k => h _ (by decide) (List.mem_singleton.1 k)).trans (at11 m c h)
theorem at13 : W13 m c r = W9 m c r := (upd13_of m c r (h _ (by decide))).trans (at12 m c h)
theorem at14 : W14 m c r = W9 m c r := (upd14_of m c r (h _ (by decide))).trans (at13 m c h)
theorem at15 : W15 m c r = W9 m c r := (upd15_of m c r (h _ (by decide))).trans (at14 m c h)
theorem at16 : W16 m c r = W9 m c r :=
  (StableHlo.after_of_writes_sub hostOps5 _ hostOps5_writes fun k => h _ (by decide) (List.mem_singleton.1 k)).trans (at15 m c h)

end

-- No item before the first region writes an argument array: there it holds what it was launched with.
theorem W9_arg (r : Ref sig .tc)
    (h : r ∈ ([main_arg0, main_arg2, main_arg3, main_arg4, main_arg5] : List (Ref sig .tc))) :
    W9 m c r = m ((c : Thread nD τ).loc r) := by
  simp only [List.mem_cons, List.not_mem_nil, or_false] at h
  rcases h with rfl | rfl | rfl | rfl | rfl <;>
    exact (V9_of m c _ (by decide)).trans <| (V8_of m c _ (by decide)).trans <| (V7_of m c _ (by decide)).trans <|
      (V6_of m c _ (by decide)).trans <| (V5_of m c _ (by decide)).trans <| (V4_of m c _ (by decide)).trans <|
      (V3_of m c _ (by decide)).trans <| (V2_of m c _ (by decide)).trans <| (V1_of m c _ (by decide)).trans rfl

-- Each region's output is its value theorem read at the contents its inputs hold on entry.
theorem o10_eq : o10 m c = proj (m ((c : Thread nD τ).loc main_arg0)) (m ((c : Thread nD τ).loc main_arg2)) :=
  (arr0 (atTc (W9 m)) c).trans (congrArg₂ proj (W9_arg m c main_arg0 (by decide)) (W9_arg m c main_arg2 (by decide)))

theorem o11_eq :
    o11 m c = gatherSum (o10 m c) (padTab (srcK (m ((c : Thread nD τ).loc main_arg1))))
      (padArr (normK (m ((c : Thread nD τ).loc main_arg1)))) :=
  (arr1 (atTc (W10 m)) c).trans <| congr (congrArg₂ gatherSum (upd10_self m c)
    ((at10 m c (by decide)).trans (V9_src m c))) ((at10 m c (by decide)).trans (V9_norm m c))

theorem o13_eq :
    o13 m c = relu (scatterSum (o11 m c) (padTab (dstK (m ((c : Thread nD τ).loc main_arg1))))
      (biasRow (m ((c : Thread nD τ).loc main_arg3)))) :=
  (arr2 (atTc (W12 m)) c).trans <| congrArg relu <| congr (congrArg₂ scatterSum
    ((StableHlo.after_of_writes_sub hostOps2 _ hostOps2_writes (by decide)).trans (upd11_self m c))
    ((at12 m c (by decide)).trans (V9_dst m c)))
    ((bias1 _).trans (congrArg biasRow ((at11 m c (by decide)).trans (W9_arg m c main_arg3 (by decide)))))

theorem o14_eq : o14 m c = proj (o13 m c) (m ((c : Thread nD τ).loc main_arg4)) :=
  (arr3 (atTc (W13 m)) c).trans (congrArg₂ proj (upd13_self m c)
    ((at13 m c (by decide)).trans (W9_arg m c main_arg4 (by decide))))

theorem o15_eq :
    o15 m c = gatherSum (o14 m c) (padTab (srcK (m ((c : Thread nD τ).loc main_arg1))))
      (padArr (normK (m ((c : Thread nD τ).loc main_arg1)))) :=
  (arr4 (atTc (W14 m)) c).trans <| congr (congrArg₂ gatherSum (upd14_self m c)
    ((at14 m c (by decide)).trans (V9_src m c))) ((at14 m c (by decide)).trans (V9_norm m c))

theorem o17_eq :
    o17 m c = scatterSum (o15 m c) (padTab (dstK (m ((c : Thread nD τ).loc main_arg1))))
      (biasRow (m ((c : Thread nD τ).loc main_arg5))) :=
  (arr5 (atTc (W16 m)) c).trans <| congr (congrArg₂ scatterSum
    ((StableHlo.after_of_writes_sub hostOps5 _ hostOps5_writes (by decide)).trans (upd15_self m c))
    ((at16 m c (by decide)).trans (V9_dst m c)))
    ((bias2 _).trans (congrArg biasRow ((at15 m c (by decide)).trans (W9_arg m c main_arg5 (by decide)))))

-- Substituting region by region gives both layers of the arguments.
theorem kernel_value (c : Dev nD) :
    o17 m c = Cert.Spec.net (m ((c : Thread nD τ).loc main_arg0)) (m ((c : Thread nD τ).loc main_arg2))
      (Cert.Spec.biasRow (m ((c : Thread nD τ).loc main_arg3))) (m ((c : Thread nD τ).loc main_arg4))
      (Cert.Spec.biasRow (m ((c : Thread nD τ).loc main_arg5)))
      (Cert.Spec.padTab (srcK (m ((c : Thread nD τ).loc main_arg1))))
      (Cert.Spec.padTab (dstK (m ((c : Thread nD τ).loc main_arg1))))
      (Cert.Spec.padArr (normK (m ((c : Thread nD τ).loc main_arg1)))) := by
  rw [o17_eq, o15_eq, o14_eq, o13_eq, o11_eq, o10_eq]
  rfl

end Cert.KernelIdeal.Hand

end
-- ==== Proof.LibRowGatherScatter.lean ====
import Idealize.ShloMosaic.PureOps.Contract
import Idealize.ShloMosaic.Lib.IdealHost
import Idealize.ShloMosaic.Lib.Affine
import Idealize.ShloMosaic.Lib.Pipeline.Value
import Idealize.ShloMosaic.Lib.StackMember

noncomputable section

open scoped BigOperators

namespace Cert.ReferenceIdeal.Hand

open Idealize.ShloMosaic Idealize.ShloMosaic.ValueIdx

section Gather
variable {α : Type}

-- The dimension numbers of a lookup of whole rows of an [N, D] table at a column [E, 1] of start words.
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

-- The lookup at (e, q) reads the table at the start word of e, read signed and clamped into the rows, feature q.
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  unfold Host.gather
  congr 1
  funext a
  refine Fin.ext ?_
  match a with
  | ⟨0, _⟩ =>
    show (rowGather N E D wf).start _ idx 0 + (rowGather N E D wf).batchCoord _ 0
      + (rowGather N E D wf).offCoord _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    exact congrArg (fun j => min (idx j).toInt.toNat (N - 1))
      (funext fun | ⟨0, _⟩ => Fin.ext rfl | ⟨1, _⟩ => Fin.ext rfl)
  | ⟨1, _⟩ =>
    show (rowGather N E D wf).start _ idx 1 + (rowGather N E D wf).batchCoord _ 1
      + (rowGather N E D wf).offCoord _ 1 = q.val
    have h1 : (1 : Fin 2) ∉ [(0 : Fin 2)] := by decide
    unfold GatherDims.start GatherDims.offCoord
    rw [GatherDims.batchCoord_eq_zero _ _ _ List.not_mem_nil, dif_neg h1,
      dif_pos ((GatherDims.mem_sKept _ _).mpr ⟨h1, List.not_mem_nil⟩)]
    exact Nat.zero_add _

end Gather

section Scatter

-- The dimension numbers of a scatter of rows [E, D] into an [N, D] operand at a column [E, 1] of start words.
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

-- The window of update (e, q') starts at (the start word of e read signed, 0); its coordinate there is (0, q').
theorem rowScatter_start_zero (e : Fin E) (q' : Fin D) :
    (rowScatter N E D wf).start (ix2 e q') idx 0 = (idx (ix2 e 0)).toInt := by
  unfold ScatterDims.start
  rw [dif_pos (List.mem_singleton.mpr rfl)]
  exact congrArg (fun j => (idx j).toInt) (funext fun | ⟨0, _⟩ => Fin.ext rfl | ⟨1, _⟩ => Fin.ext rfl)

theorem rowScatter_start_one (e : Fin E) (q' : Fin D) :
    (rowScatter N E D wf).start (ix2 e q') idx 1 = 0 := by
  unfold ScatterDims.start
  rw [dif_neg (show (1 : Fin 2) ∉ [(0 : Fin 2)] by decide)]

theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

-- Update (e, q') lands at (d, q) exactly when the start word of e, read signed, is d and q' = q.
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  have hd := d.isLt
  have hq := q'.isLt
  unfold ScatterDims.resultIdx?
  simp only [Fin.forall_fin_two, rowScatter_start_zero, rowScatter_start_one, rowScatter_window_zero,
    rowScatter_window_one]
  split
  · rw [Option.some.injEq, funext_iff, Fin.forall_fin_two, Fin.ext_iff, Fin.ext_iff, Fin.ext_iff]
    simp only [rowScatter_start_zero, rowScatter_start_one, rowScatter_window_zero, rowScatter_window_one]
    show (_ : ℤ).toNat = d.val ∧ (_ : ℤ).toNat = q.val ↔ _
    omega
  · next h =>
    refine ⟨fun hf => absurd hf (by simp), fun ⟨h0, h1⟩ => absurd ?_ h⟩
    show (_ ∧ _ < (N : ℤ)) ∧ _ ∧ _ < (D : ℤ)
    omega

-- The accumulating row scatter at (d, q): the operand's entry plus the updates (e, q) of the edges whose start word is d.
theorem rowScatterAdd_apply {φ : FTy} (s : Fin E → BitVec w) (hs : ∀ e, idx (ix2 e 0) = s e) (x : FVec Ideal ⟨2, ![N, D]⟩ φ)
    (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (s e).toInt = (d.val : ℤ)), upd (ix2 e q) := by
  obtain rfl : s = fun e => idx (ix2 e 0) := funext fun e => (hs e).symm
  refine congrArg (x (ix2 d q) + ·) ?_
  rw [Finset.sum_filter, sum_idx2, Finset.sum_filter]
  refine Finset.sum_congr rfl fun e _ => ?_
  by_cases hd : (idx (ix2 e 0)).toInt = (d.val : ℤ)
  · simp only [rowScatter_resultIdx_iff, hd, true_and, Finset.sum_ite_eq', Finset.mem_univ, if_true]
  · simp only [rowScatter_resultIdx_iff, hd, false_and, if_false, Finset.sum_const_zero]

end Scatter

section Broadcasts
variable {α : Type}

-- A coordinate of an axis is 0 when the axis has extent one.
theorem fin_val_unit {n : Nat} (e : Fin n) : e.val = if n = 1 then 0 else e.val := by
  have := e.isLt
  split <;> omega

-- A vector as a column [E, 1], at (e, 0): the vector at e.
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) :=
  broadcastInDim_apply _ h v _ _ fun | ⟨0, _⟩ => fin_val_unit e

-- A column [E, 1] spread over D features, at (e, q): the column at (e, 0).
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) :=
  broadcastInDim_apply _ h v _ _ fun | ⟨0, _⟩ => fin_val_unit e | ⟨1, _⟩ => rfl

-- A vector [D] as a row [1, D], at (0, q): the vector at q.
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) :=
  broadcastInDim_apply _ h v _ _ fun | ⟨0, _⟩ => fin_val_unit q

-- A row [1, D] spread over N rows, at (d, q): the row at (0, q).
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) :=
  broadcastInDim_apply _ h v _ _ fun | ⟨0, _⟩ => rfl | ⟨1, _⟩ => fin_val_unit q

end Broadcasts

-- The index normalisation of a row lookup as a select: a negative word counts from the end.
theorem wrap_select (s n : BitVec 32) :
    Scalar.select (IntOp.cmpi .slt s 0#32) (IntOp.addi s n) s = if s.toInt < 0 then s + n else s := by
  by_cases h : s.toInt < 0
  · rw [IntOp.cmpi_slt.mpr (by simpa using h), select_one, if_pos h]
    rfl
  · have hc : ¬IntOp.cmpi .slt s 0#32 = 1#1 := fun hc => h (by simpa using IntOp.cmpi_slt.mp hc)
    rw [eq_zero_of_ne_one hc, select_zero, if_neg h]

-- The maximum with a zero scalar spread over the shape is the maximum with 0, entry by entry.
theorem reluOps_eq {t : Shape} (hz : (⟨0, ![]⟩ : Shape).BroadcastsInDim t ![]) (x : FVec Ideal t .f32) :
    maximumf x (broadcastInDim t ![] hz (constant (F := Ideal) ⟨0, ![]⟩ .f32 0x00000000#32)) = fun i => max (x i) 0 := by
  funext i
  rw [maximumf_apply, broadcastInDim_scalar_apply, constant_apply, Ideal.ofBits_zero_f32]

end Cert.ReferenceIdeal.Hand

end
-- ==== Proof.RefRead.lean ====
import proofs.«110469_j83107617177903_1_alg».proof.Proof.LibRowGatherScatter
import proofs.«110469_j83107617177903_1_alg».proof.Proof.Spec

noncomputable section

namespace Cert.ReferenceIdeal.Hand

open Idealize.ShloMosaic Idealize.ShloMosaic.ValueIdx

section Layer
variable {F : FTy → Type} [FloatOps F] {D : Nat}
  (gwf : GatherDims.WF ⟨2, ![50000, D]⟩ ⟨2, ![850000, 1]⟩ ⟨2, ![850000, D]⟩ [1] [0] [] [0] [] 1 ![1, D])
  (swf : ScatterDims.WF ⟨2, ![50000, D]⟩ ⟨2, ![850000, 1]⟩ ⟨2, ![850000, D]⟩ [1] [0] [0] 1)
  (hs : (⟨0, ![]⟩ : Shape).BroadcastsInDim ⟨1, ![850000]⟩ ![])
  (hc : (⟨1, ![850000]⟩ : Shape).BroadcastsInDim ⟨2, ![850000, 1]⟩ ![0])
  (hf : (⟨2, ![850000, 1]⟩ : Shape).BroadcastsInDim ⟨2, ![850000, D]⟩ ![0, 1])
  (hz : (⟨0, ![]⟩ : Shape).BroadcastsInDim ⟨2, ![50000, D]⟩ ![])
  (hr : (⟨1, ![D]⟩ : Shape).BroadcastsInDim ⟨2, ![1, D]⟩ ![1])
  (hrs : (⟨2, ![1, D]⟩ : Shape).BroadcastsInDim ⟨2, ![50000, D]⟩ ![0, 1])

-- The column of start words of a row lookup over 50000 rows: a negative word counts from the end.
def wrapCol (s : IVec ⟨1, ![850000]⟩ 32) : IVec ⟨2, ![850000, 1]⟩ 32 :=
  broadcastInDim ⟨2, ![850000, 1]⟩ ![0] hc
    (select (cmpi .slt s (broadcastInDim ⟨1, ![850000]⟩ ![] hs (constantI ⟨0, ![]⟩ 32 0#32)))
      (addi s (broadcastInDim ⟨1, ![850000]⟩ ![] hs (constantI ⟨0, ![]⟩ 32 50000#32))) s)

theorem wrapCol_apply (s : IVec ⟨1, ![850000]⟩ 32) (e : Fin 850000) :
    wrapCol hs hc s (ix2 e 0) = if (s (ix1 e)).toInt < 0 then s (ix1 e) + 50000#32 else s (ix1 e) :=
  (bcastCol_apply hc _ e 0).trans ((select_apply _ _ _ _).trans (wrap_select _ _))

-- One layer's operations: project, look up each edge's source row, scale by its weight, add at its destination, add the bias.
def layerF (x : FVec F ⟨2, ![50000, 256]⟩ .f32) (W : FVec F ⟨2, ![256, D]⟩ .f32) (b : FVec F ⟨1, ![D]⟩ .f32)
    (src dst : IVec ⟨1, ![850000]⟩ 32) (norm : FVec F ⟨1, ![850000]⟩ .f32) : FVec F ⟨2, ![50000, D]⟩ .f32 :=
  addf (Host.scatterAdd (rowScatter 50000 850000 D swf)
      (broadcastInDim ⟨2, ![50000, D]⟩ ![] hz (constant ⟨0, ![]⟩ .f32 0x00000000#32))
      (broadcastInDim ⟨2, ![850000, 1]⟩ ![0] hc dst)
      (mulf (Host.gather (rowGather 50000 850000 D gwf) (Host.dotGeneral (DotDims.plain 50000 256 D) none x W)
          (wrapCol hs hc src))
        (broadcastInDim ⟨2, ![850000, D]⟩ ![0, 1] hf (broadcastInDim ⟨2, ![850000, 1]⟩ ![0] hc norm))))
    (broadcastInDim ⟨2, ![50000, D]⟩ ![0, 1] hrs (broadcastInDim ⟨2, ![1, D]⟩ ![1] hr b))

-- Over the extended reals these operations are the reference's layer, index by index.
theorem layerF_eq (x : FVec Ideal ⟨2, ![50000, 256]⟩ .f32) (W : FVec Ideal ⟨2, ![256, D]⟩ .f32)
    (b : FVec Ideal ⟨1, ![D]⟩ .f32) (src dst : IVec ⟨1, ![850000]⟩ 32) (norm : FVec Ideal ⟨1, ![850000]⟩ .f32) :
    layerF (F := Ideal) gwf swf hs hc hf hz hr hrs x W b src dst norm = Cert.Spec.refLayer x W b src dst norm := by
  funext i
  obtain ⟨d, q, rfl⟩ : ∃ (d : Fin 50000) (q : Fin D), i = ix2 d q := ⟨i 0, i 1, eq_ix2 i⟩
  unfold layerF
  rw [addf_apply, rowScatterAdd_apply swf _ _ (fun e => bcastCol_apply hc dst e 0), broadcastInDim_scalar_apply,
    constant_apply, Ideal.ofBits_zero_f32, zero_add, bcastRows_apply, bcastRow_apply]
  refine congrArg (· + b (ix1 q)) (Finset.sum_congr rfl fun e _ => ?_)
  rw [mulf_apply, rowGather_apply (by norm_num) gwf _ _ e _ _ (wrapCol_apply hs hc src e), bcastFeat_apply,
    bcastCol_apply, StackMember.dotGeneral_plain_apply]
  rfl

end Layer

end Cert.ReferenceIdeal.Hand

end
-- ==== Proof.RefSide.lean ====
import proofs.«110469_j83107617177903_1_alg».proof.Proof.RefRun
import proofs.«110469_j83107617177903_1_alg».proof.Proof.RefRead

noncomputable section

namespace Cert.ReferenceIdeal.Hand

open Cert.ReferenceIdeal Cert.ReferenceIdeal.Gen Idealize.ShloMosaic Idealize.ShloMosaic.TcCoe Idealize.SL.Sem
  Idealize.ShloMosaic.StableHlo

-- The sources: row 0 of the edge list followed by the self-loops 0 … 49999; the destinations: the same with row 1.
def srcR (a : Cert.Spec.Tab 2 800000) : Cert.Spec.Tab1 850000 :=
  concatenate S850000 0 [⟨S800000, (shapeCast _ (extractStridedSlice S1x800000 ![0, 0] a slices_S2x800000_S1x800000_0_0) shapeCasts_S1x800000_S800000)⟩, ⟨S50000, (iotaInDim S50000 32 0)⟩] concatenates_S800000_S50000_S850000_d0

def dstR (a : Cert.Spec.Tab 2 800000) : Cert.Spec.Tab1 850000 :=
  concatenate S850000 0 [⟨S800000, (shapeCast _ (extractStridedSlice S1x800000 ![1, 0] a slices_S2x800000_S1x800000_1_0) shapeCasts_S1x800000_S800000)⟩, ⟨S50000, (iotaInDim S50000 32 0)⟩] concatenates_S800000_S50000_S850000_d0

section AnyFamily
variable {F : FTy → Type} [FloatOps F]

-- The degree of each node: ones added at the destination words.
def degF (a : IVec S2x800000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dstR a)) (broadcastInDim S850000 ![] bcast_S_S850000 (constant S_ .f32 0x3F800000#32))

-- dis: the inverse square root of the degree where it is positive, 0 elsewhere.
def disF (a : IVec S2x800000 32) : FVec F S50000 .f32 :=
  select (cmpf (F := F) .ogt (degF a) (broadcastInDim S50000 ![] bcast_S_S50000 (constant S_ .f32 0x00000000#32))) (Host.rsqrt (maximumf (degF a) (broadcastInDim S50000 ![] bcast_S_S50000 (constant S_ .f32 0x3F800000#32)))) (broadcastInDim S50000 ![] bcast_S_S50000 (id (constant S_ .f32 0x00000000#32)))

-- The weight of an edge: dis at its source times dis at its destination.
def normF (a : IVec S2x800000 32) : FVec F S850000 .f32 :=
  mulf (Host.gather gather_S50000_S850000x1_S850000_n_0_n_n_0_1_1 (disF a) (wrapCol bcast_S_S850000 bcast_S850000_S850000x1_0 (srcR a)))
    (Host.gather gather_S50000_S850000x1_S850000_n_0_n_n_0_1_1 (disF a) (wrapCol bcast_S_S850000 bcast_S850000_S850000x1_0 (dstR a)))

-- The reference's operations as one function of its six argument arrays: the second layer over the rectified first.
def netF (x : FVec F S50000x256 .f32) (a : IVec S2x800000 32) (W1 : FVec F S256x256 .f32) (b1 : FVec F S256 .f32)
    (W2 : FVec F S256x128 .f32) (b2 : FVec F S128 .f32) : FVec F S50000x128 .f32 :=
  layerF gather_S50000x128_S850000x1_S850000x128_1_0_n_n_0_1_1128_wf scatter_S50000x128_S850000x1_S850000x128_1_0_0_1_wf
    bcast_S_S850000 bcast_S850000_S850000x1_0 bcast_S850000x1_S850000x128_0_1 bcast_S_S50000x128 bcast_S128_S1x128_1
    bcast_S1x128_S50000x128_0_1
    (maximumf (layerF gather_S50000x256_S850000x1_S850000x256_1_0_n_n_0_1_1256_wf
        scatter_S50000x256_S850000x1_S850000x256_1_0_0_1_wf bcast_S_S850000 bcast_S850000_S850000x1_0
        bcast_S850000x1_S850000x256_0_1 bcast_S_S50000x256 bcast_S256_S1x256_1 bcast_S1x256_S50000x256_0_1
        x W1 b1 (srcR a) (dstR a) (normF a))
      (broadcastInDim S50000x256 ![] bcast_S_S50000x256 (constant S_ .f32 0x00000000#32)))
    W2 b2 (srcR a) (dstR a) (normF a)

-- The result array the run names is that function of the arguments: the same term, regrouped.
theorem res_opsF (m : (ℓ : Loc nD τ sig) → Buf (Elt F) ℓ) (c : Dev nD) :
    Cert.ReferenceIdeal.ValueP.res_main_v98 m c
      = netF (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rfl

end AnyFamily

def normR (a : Cert.Spec.Tab 2 800000) : Cert.Spec.Vec1 850000 := normF (F := Ideal) a

-- Over the extended reals each layer is the reference's layer and the maximum with zero is the rectifier.
theorem netF_eq (x : FVec Ideal S50000x256 .f32) (a : IVec S2x800000 32) (W1 : FVec Ideal S256x256 .f32)
    (b1 : FVec Ideal S256 .f32) (W2 : FVec Ideal S256x128 .f32) (b2 : FVec Ideal S128 .f32) :
    netF (F := Ideal) x a W1 b1 W2 b2 = Cert.Spec.refNet x W1 b1 W2 b2 (srcR a) (dstR a) (normR a) := by
  unfold netF
  rw [layerF_eq, layerF_eq, reluOps_eq]
  rfl

theorem run_ref (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v98)
        = Cert.Spec.refNet (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
          (srcR (m ((c.tc : Thread nD τ).loc main_arg1))) (dstR (m ((c.tc : Thread nD τ).loc main_arg1))) (normR (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.ReferenceIdeal.defs _ _).mono
    (fun _ h c => ⟨(h c).1.trans ((res_opsF m c).trans (netF_eq _ _ _ _ _ _)), (h c).2⟩)
    (Cert.ReferenceIdeal.ValueP.run (F := Ideal) m ρ)

end Cert.ReferenceIdeal.Hand

end
-- ==== Proof.Bridge.lean ====
import proofs.«110469_j83107617177903_1_alg».proof.Proof.Spec

noncomputable section

open scoped BigOperators

namespace Cert.Bridge

open Cert.Spec Idealize.ShloMosaic Idealize.ShloMosaic.ValueIdx

-- The word of a small natural n equals s exactly when s read signed is n.
theorem ofNat_eq_iff (n : Nat) (hn : n < 50000) (s : BitVec 32) : BitVec.ofNat 32 n = s ↔ s.toInt = (n : ℤ) := by
  rw [← BitVec.toNat_inj, BitVec.toNat_ofNat, BitVec.toInt_eq_toNat_cond, Nat.mod_eq_of_lt (by omega)]
  have := s.isLt
  split <;> omega

-- The one-hot weight [d = t] keeps a exactly when t read signed is d.
theorem oh_mul (d : Fin 50000) (t : BitVec 32) (a : EReal) :
    oh (BitVec.ofNat 32 d.val) t * a = if t.toInt = (d.val : ℤ) then a else 0 := by
  rw [oh, if_congr (ofNat_eq_iff _ d.isLt t) rfl rfl, ite_mul, one_mul, zero_mul]

-- For a word in [0, 50000) neither the wrap nor the clamp moves it.
theorem nodeOf_val (s : BitVec 32) (hs : 0 ≤ s.toInt ∧ s.toInt < 50000) : ((nodeOf s).val : ℤ) = s.toInt := by
  show ((min (if s.toInt < 0 then s + 50000#32 else s).toInt.toNat 49999 : ℕ) : ℤ) = _
  rw [if_neg (by omega)]
  omega

-- A one-hot row times the table is the table's row: only the node of s has a nonzero weight.
theorem onehot_row {D : Nat} (xw : Arr 50000 D) (s : BitVec 32) (hs : 0 ≤ s.toInt ∧ s.toInt < 50000) (q : Fin D) :
    (∑ n : Fin 50000, oh (BitVec.ofNat 32 n.val) s * xw (ix2 n q)) = xw (ix2 (nodeOf s) q) := by
  have hv := nodeOf_val s hs
  rw [Finset.sum_eq_single_of_mem (nodeOf s) (Finset.mem_univ _) fun n _ hne => by
    rw [oh_mul, if_neg fun h => hne (Fin.ext (by omega))], oh_mul, if_pos hv.symm]

theorem padTab_real (f : Tab1 850000) (e : Fin 850000) : padTab f (ix2 (Fin.castAdd 944 e) 0) = f (ix1 e) :=
  dif_pos e.isLt

theorem padArr_real (f : Vec1 850000) (e : Fin 850000) : padArr f (ix2 (Fin.castAdd 944 e) 0) = f (ix1 e) :=
  dif_pos e.isLt

theorem padArr_tail (f : Vec1 850000) (e : Fin 944) : padArr f (ix2 (Fin.natAdd 850000 e) 0) = 0 :=
  dif_neg (Nat.not_lt.2 (Nat.le_add_right _ _))

-- A sum whose terms vanish on the last m slots is the sum over the first n.
theorem sum_pad {n m : Nat} (g : Fin (n + m) → EReal) (hz : ∀ i : Fin m, g (Fin.natAdd n i) = 0) :
    (∑ i, g i) = ∑ i : Fin n, g (Fin.castAdd m i) := by
  rw [Fin.sum_univ_add, Finset.sum_eq_zero fun i _ => hz i, add_zero]

-- A padded slot has weight 0 and a real slot's one-hot row picks its source row, so only the real edges into d remain.
theorem scatter_sum {D : Nat} (xw : Arr 50000 D) (src dst : Tab1 850000) (norm : Vec1 850000)
    (hsrc : ∀ e : Fin 850000, 0 ≤ (src (ix1 e)).toInt ∧ (src (ix1 e)).toInt < 50000) (d : Fin 50000) (q : Fin D) :
    (∑ e : Fin 850944, oh (BitVec.ofNat 32 d.val) (padTab dst (ix2 e 0))
        * gatherSum xw (padTab src) (padArr norm) (ix2 e q))
      = ∑ e ∈ Finset.univ.filter (fun e : Fin 850000 => (dst (ix1 e)).toInt = (d.val : ℤ)),
          xw (ix2 (nodeOf (src (ix1 e))) q) * norm (ix1 e) := by
  rw [Finset.sum_filter]
  refine (sum_pad (n := 850000) (m := 944) _ fun e => ?_).trans (Finset.sum_congr rfl fun e _ => ?_)
  · rw [gatherSum_apply, padArr_tail, mul_zero, mul_zero]
  · rw [gatherSum_apply, padTab_real, padTab_real, padArr_real, onehot_row xw _ (hsrc e), oh_mul]

theorem layer_eq {D : Nat} (x : Arr 50000 256) (W : Arr 256 D) (b : Vec1 D) (src dst : Tab1 850000) (norm : Vec1 850000)
    (hsrc : ∀ e : Fin 850000, 0 ≤ (src (ix1 e)).toInt ∧ (src (ix1 e)).toInt < 50000) :
    layer x W (biasRow b) (padTab src) (padTab dst) (padArr norm) = refLayer x W b src dst norm :=
  funext fun i => congrArg (· + b (ix1 (col i))) (scatter_sum (proj x W) src dst norm hsrc (row i) (col i))

theorem net_eq (x : Arr 50000 256) (W1 : Arr 256 256) (b1 : Vec1 256) (W2 : Arr 256 128) (b2 : Vec1 128)
    (src dst : Tab1 850000) (norm : Vec1 850000)
    (hsrc : ∀ e : Fin 850000, 0 ≤ (src (ix1 e)).toInt ∧ (src (ix1 e)).toInt < 50000) :
    net x W1 (biasRow b1) W2 (biasRow b2) (padTab src) (padTab dst) (padArr norm) = refNet x W1 b1 W2 b2 src dst norm := by
  unfold net refNet
  rw [layer_eq x W1 b1 src dst norm hsrc, layer_eq _ W2 b2 src dst norm hsrc]

end Cert.Bridge

end
-- ==== Proof.PreDecode.lean ====
import proofs.«110469_j83107617177903_1_alg».proof.Defs
import proofs.«110469_j83107617177903_1_alg».proof.Proof.Gen.Pre_finite_inputs
import Idealize.ShloMosaic.Lib.ReduceAll
import Idealize.ShloMosaic.Lib.ValueIdx
import Idealize.ShloMosaic.Lib.ValueLayout

noncomputable section

namespace Cert.PreDecode

open Idealize.ShloMosaic Idealize.ShloMosaic.ValueIdx Idealize.SL.Sem

instance subsingleton_scalar_idx : Subsingleton Cert.Pre_finite_inputs.S_.Idx := ⟨fun a b => funext fun d => d.elim0⟩

-- The predicate's last conjunct is the conjunction, over the words w of the table's row 0, of w ≥ 0 and w < 50000, both signed.
theorem src_in_range [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ e : Fin 800000,
      0 ≤ (m ((c.tc : Thread Cert.KernelIdeal.nD Cert.KernelIdeal.τ).loc Cert.KernelIdeal.main_arg1) (ix2 0 e)).toInt
      ∧ (m ((c.tc : Thread Cert.KernelIdeal.nD Cert.KernelIdeal.τ).loc Cert.KernelIdeal.main_arg1) (ix2 0 e)).toInt < 50000 := by
  intro e
  have h0 := congrFun (h c) ix0
  dsimp only [Cert.Pre_finite_inputs.fn, Cert.Pre_finite_inputs.fn_part1] at h0
  obtain ⟨ha, hb⟩ := IntOp.andi_eq_one.1 (Host.reduce_andi_all _ _ _ _ _ (IntOp.andi_eq_one.1 h0).2 (ix2 (0 : Fin 1) e))
  rw [← slice2_axis0_apply 0 (m ((c.tc : Thread Cert.KernelIdeal.nD Cert.KernelIdeal.τ).loc Cert.KernelIdeal.main_arg1))
    Cert.Pre_finite_inputs.Facts.slices_S2x800000_S1x800000_0_0 (0 : Fin 1) e (0 : Fin 2) rfl]
  exact ⟨IntOp.cmpi_sge.1 ha, IntOp.cmpi_slt.1 hb⟩

end Cert.PreDecode

end
-- ==== Proof.HostEq.lean ====
import proofs.«110469_j83107617177903_1_alg».proof.Proof.KI.Host
import proofs.«110469_j83107617177903_1_alg».proof.Proof.RefSide

noncomputable section

namespace Cert.HostEq

open Idealize.ShloMosaic Cert.KernelIdeal.Hand Cert.ReferenceIdeal.Hand

-- The two programs compose the edge chain out of the same operations at the same dimension numbers.
theorem src_eq (a : Cert.Spec.Tab 2 800000) : srcK a = srcR a := rfl

theorem dst_eq (a : Cert.Spec.Tab 2 800000) : dstK a = dstR a := rfl

theorem norm_eq (a : Cert.Spec.Tab 2 800000) : normK a = normR a := rfl

end Cert.HostEq

end
-- ==== Proof.lean ====
import proofs.«110469_j83107617177903_1_alg».proof.Defs
import proofs.«110469_j83107617177903_1_alg».proof.Proof.Gen.Kernel
import proofs.«110469_j83107617177903_1_alg».proof.Proof.Gen.KernelIdeal
import proofs.«110469_j83107617177903_1_alg».proof.Proof.Gen.ReferenceIdeal
import proofs.«110469_j83107617177903_1_alg».proof.Proof.Gen.Pre_finite_inputs
import proofs.«110469_j83107617177903_1_alg».proof.Proof.KB.Run
import proofs.«110469_j83107617177903_1_alg».proof.Proof.KI.Run
import proofs.«110469_j83107617177903_1_alg».proof.Proof.KI.Value
import proofs.«110469_j83107617177903_1_alg».proof.Proof.RefSide
import proofs.«110469_j83107617177903_1_alg».proof.Proof.Bridge
import proofs.«110469_j83107617177903_1_alg».proof.Proof.PreDecode
import proofs.«110469_j83107617177903_1_alg».proof.Proof.HostEq
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Hand.run_ref m ρ)

/-- The kernel's two layers are the reference's once every source word names a node; the edge words and weights are one host chain in both programs. -/
theorem algebraic : Cert.algebraic_KernelIdeal_ReferenceIdeal := by
  intro m ρ m' ρ' hpre hagree
  refine ⟨_, Cert.KernelIdeal.Hand.run_all (F := Ideal) m ρ,
    (θ_run Cert.ReferenceIdeal.defs _ _).mono (fun _ h c => ⟨(h c).1.trans ?_, (h c).2⟩) (Cert.ReferenceIdeal.Hand.run_ref m' ρ')⟩
  rw [(hagree c).1, (hagree c).2.1, (hagree c).2.2.1, (hagree c).2.2.2.1, (hagree c).2.2.2.2.1, (hagree c).2.2.2.2.2,
    Cert.KernelIdeal.Hand.kernel_value m c,
    Cert.Bridge.net_eq _ _ _ _ _ _ _ _ (Cert.KernelIdeal.Hand.srcK_range _ (Cert.PreDecode.src_in_range m hpre c)),
    Cert.HostEq.src_eq, Cert.HostEq.dst_eq, Cert.HostEq.norm_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
